-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128x1 .f32 := Host.absf main_arg16
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S128x128 .f32) (main_arg14 : FVec F S128x128 .f32) (main_arg15 : FVec F S128 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x1 .f32) (main_arg17 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : IVec S2x600000 32) (main_arg2 : FVec F S600000 .f32) (main_arg3 : IVec S50000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S5000x64 : Shape := ⟨2, ![5000, 64]⟩
abbrev S64x1 : Shape := ⟨2, ![64, 1]⟩
abbrev S1x1 : Shape := ⟨2, ![1, 1]⟩

abbrev nBuf : Space → Nat
  | .hbm => 128
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S50000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S1x600000, .i32⟩
  | .hbm, ⟨19, _⟩ => ⟨S600000, .i32⟩
  | .hbm, ⟨20, _⟩ => ⟨S1x600000, .i32⟩
  | .hbm, ⟨21, _⟩ => ⟨S600000, .i32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S50000, .f32⟩
  | .hbm, ⟨26, _⟩ => ⟨S600000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S600000x128, .f32⟩
  | .hbm, ⟨92, _⟩ => ⟨S_, .f32⟩
  | .hbm, ⟨93, _⟩ => ⟨S50000x128, .f32⟩
  | .hbm, ⟨94, _⟩ => ⟨S600000x1, .i32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S64, .i32⟩
  | .hbm, ⟨101, _⟩ => ⟨S50000x1, .i32⟩
  | .hbm, ⟨102, _⟩ => ⟨S1x64, .i32⟩
  | .hbm, ⟨103, _⟩ => ⟨S50000x64, .i32⟩
  | .hbm, ⟨104, _⟩ => ⟨S50000x64, .i32⟩
  | .hbm, ⟨105, _⟩ => ⟨S50000x64, .i1⟩
  | .hbm, ⟨106, _⟩ => ⟨S50000x64, .f32⟩
  | .hbm, ⟨107, _⟩ => ⟨S_, .f32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x128, .f32⟩
  | .hbm, ⟨113, _⟩ => ⟨S64x1, .f32⟩
  | .hbm, ⟨114, _⟩ => ⟨S64x128, .f32⟩
  | .hbm, ⟨115, _⟩ => ⟨S64x128, .f32⟩
  | .hbm, ⟨116, _⟩ => ⟨S64x1, .f32⟩
  | .hbm, ⟨117, _⟩ => ⟨S1x1, .f32⟩
  | .hbm, ⟨118, _⟩ => ⟨S64x1, .f32⟩
  | .hbm, ⟨119, _⟩ => ⟨S64x1, .f32⟩
  | .hbm, ⟨120, _⟩ => ⟨S64x1, .f32⟩
  | .hbm, ⟨121, _⟩ => ⟨S64x1, .f32⟩
  | .hbm, ⟨122, _⟩ => ⟨S_, .f32⟩
  | .hbm, ⟨123, _⟩ => ⟨S64x1, .f32⟩
  | .hbm, ⟨124, _⟩ => ⟨S64x1, .f32⟩
  | .hbm, ⟨125, _⟩ => ⟨S_, .f32⟩
  | .hbm, ⟨126, _⟩ => ⟨S64x1, .f32⟩
  | .hbm, ⟨127, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x64, .f32⟩
  | .local _ .vmem, ⟨37, _⟩ => ⟨S5000x64, .f32⟩
  | .local _ .vmem, ⟨38, _⟩ => ⟨S5000x128, .f32⟩
  | .local _ .vmem, ⟨39, _⟩ => ⟨S5000x128, .f32⟩
  | .local _ .vmem, ⟨40, _⟩ => ⟨S64x128, .f32⟩
  | .local _ .vmem, ⟨41, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_cst_14 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_cst_16 : Ref sig .tc := ⟨.hbm, 125, rfl⟩
abbrev main_v89 : Ref sig .tc := ⟨.hbm, 126, rfl⟩
abbrev main_v90 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v73) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 186
  | .vmem => 0
  | .smem => 0
  | _ => 0

abbrev hbmTy0_0 (i : Nat) : BufTy := match i % 128 with
  | 0 => ⟨S50000x128, .f32⟩
  | 1 => ⟨S2x600000, .i32⟩
  | 2 => ⟨S600000, .f32⟩
  | 3 => ⟨S50000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x1, .f32⟩
  | 17 => ⟨S1, .f32⟩
  | 18 => ⟨S1x600000, .i32⟩
  | 19 => ⟨S600000, .i32⟩
  | 20 => ⟨S1x600000, .i32⟩
  | 21 => ⟨S600000, .i32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .f32⟩
  | 32 => ⟨S50000x128, .f32⟩
  | 33 => ⟨S600000x1, .i32⟩
  | 34 => ⟨S50000x128, .f32⟩
  | 35 => ⟨S_, .f32⟩
  | 36 => ⟨S600000, .f32⟩
  | 37 => ⟨S_, .f32⟩
  | 38 => ⟨S50000, .f32⟩
  | 39 => ⟨S600000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S_, .f32⟩
  | 70 => ⟨S600000, .f32⟩
  | 71 => ⟨S_, .f32⟩
  | 72 => ⟨S50000, .f32⟩
  | 73 => ⟨S600000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .f32⟩
  | 100 => ⟨S50000x128, .f32⟩
  | 101 => ⟨S600000x1, .i32⟩
  | 102 => ⟨S50000x128, .f32⟩
  | 103 => ⟨S_, .f32⟩
  | 104 => ⟨S600000, .f32⟩
  | 105 => ⟨S_, .f32⟩
  | 106 => ⟨S50000, .f32⟩
  | 107 => ⟨S600000x1, .i32⟩
  | 108 => ⟨S50000, .f32⟩
  | 109 => ⟨S_, .f32⟩
  | 110 => ⟨S50000, .f32⟩
  | 111 => ⟨S50000, .f32⟩
  | 112 => ⟨S50000x1, .f32⟩
  | 113 => ⟨S50000x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S_, .i32⟩
  | 125 => ⟨S600000, .i32⟩
  | 126 => ⟨S600000, .i1⟩
  | 127 => ⟨S_, .i32⟩
  | _ => ⟨S50000x128, .f32⟩

abbrev hbmTy0_1 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S_, .f32⟩
  | 6 => ⟨S50000x128, .f32⟩
  | 7 => ⟨S600000x1, .i32⟩
  | 8 => ⟨S50000x128, .f32⟩
  | 9 => ⟨S_, .f32⟩
  | 10 => ⟨S600000, .f32⟩
  | 11 => ⟨S_, .f32⟩
  | 12 => ⟨S50000, .f32⟩
  | 13 => ⟨S600000x1, .i32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S_, .f32⟩
  | 31 => ⟨S64x128, .f32⟩
  | 32 => ⟨S50000x1, .i32⟩
  | 33 => ⟨S64x128, .f32⟩
  | 34 => ⟨S_, .f32⟩
  | 35 => ⟨S50000, .f32⟩
  | 36 => ⟨S_, .f32⟩
  | 37 => ⟨S64, .f32⟩
  | 38 => ⟨S50000x1, .i32⟩
  | 39 => ⟨S64, .f32⟩
  | 40 => ⟨S_, .f32⟩
  | 41 => ⟨S64, .f32⟩
  | 42 => ⟨S64, .f32⟩
  | 43 => ⟨S64x1, .f32⟩
  | 44 => ⟨S64x128, .f32⟩
  | 45 => ⟨S64x128, .f32⟩
  | 46 => ⟨S64x1, .f32⟩
  | 47 => ⟨S1x1, .f32⟩
  | 48 => ⟨S64x1, .f32⟩
  | 49 => ⟨S64x1, .f32⟩
  | 50 => ⟨S64x1, .f32⟩
  | 51 => ⟨S64x1, .f32⟩
  | 52 => ⟨S_, .f32⟩
  | 53 => ⟨S64x1, .f32⟩
  | 54 => ⟨S64x1, .f32⟩
  | 55 => ⟨S_, .f32⟩
  | 56 => ⟨S64x1, .f32⟩
  | 57 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call0_cst : Ref sig .tc := ⟨.hbm, 53, rfl⟩
abbrev main_call0_v0 : Ref sig .tc := ⟨.hbm, 54, rfl⟩
abbrev main_v29 : Ref sig .tc := ⟨.hbm, 55, rfl⟩
abbrev main_c_4 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_call1_cst : Ref sig .tc := ⟨.hbm, 87, rfl⟩
abbrev main_call1_v0 : Ref sig .tc := ⟨.hbm, 88, rfl⟩
abbrev main_v55 : Ref sig .tc := ⟨.hbm, 89, rfl⟩
abbrev main_c_10 : Ref sig .tc := ⟨.hbm, 90, rfl⟩
abbrev main_v56 : Ref sig .tc := ⟨.hbm, 91, rfl⟩
abbrev main_v57 : Ref sig .tc := ⟨.hbm, 92, rfl⟩
abbrev main_c_11 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call2_cst : Ref sig .tc := ⟨.hbm, 121, rfl⟩
abbrev main_call2_v0 : Ref sig .tc := ⟨.hbm, 122, rfl⟩
abbrev main_v81 : Ref sig .tc := ⟨.hbm, 123, rfl⟩
abbrev main_c_16 : Ref sig .tc := ⟨.hbm, 124, rfl⟩
abbrev main_v82 : Ref sig .tc := ⟨.hbm, 125, rfl⟩
abbrev main_v83 : Ref sig .tc := ⟨.hbm, 126, rfl⟩
abbrev main_c_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_18 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_19 : Ref sig .tc := ⟨.hbm, 137, rfl⟩
abbrev main_v92 : Ref sig .tc := ⟨.hbm, 138, rfl⟩
abbrev main_cst_20 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_21 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_call3_cst : Ref sig .tc := ⟨.hbm, 155, rfl⟩
abbrev main_call3_v0 : Ref sig .tc := ⟨.hbm, 156, rfl⟩
abbrev main_v107 : Ref sig .tc := ⟨.hbm, 157, rfl⟩
abbrev main_cst_22 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_23 : Ref sig .tc := ⟨.hbm, 162, rfl⟩
abbrev main_v111 : Ref sig .tc := ⟨.hbm, 163, rfl⟩
abbrev main_cst_24 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_25 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_26 : Ref sig .tc := ⟨.hbm, 180, rfl⟩
abbrev main_v126 : Ref sig .tc := ⟨.hbm, 181, rfl⟩
abbrev main_v127 : Ref sig .tc := ⟨.hbm, 182, rfl⟩
abbrev main_cst_27 : Ref sig .tc := ⟨.hbm, 183, rfl⟩
abbrev main_v128 : Ref sig .tc := ⟨.hbm, 184, rfl⟩
abbrev main_v129 : Ref sig .tc := ⟨.hbm, 185, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Reg0.lean ====
import proofs.«427134_j31456340476253_1_alg».proof.Proof.Gen.Kernel.Launch
import proofs.«427134_j31456340476253_1_alg».proof.Proof.Gen.Kernel.Skeleton
import proofs.«427134_j31456340476253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rRows0 : Rect S5000x128 := Rect.unit (s := S5000x128) ![0, 0] S5000x128.size inb_S5000x128_S5000x128_0_0
abbrev rWeight0 : Rect S128x128 := Rect.unit (s := S128x128) ![0, 0] S128x128.size inb_S128x128_S128x128_0_0
abbrev rBias0 : Rect S1x128 := Rect.unit (s := S1x128) ![0, 0] S1x128.size inb_S1x128_S1x128_0_0

def out0_5 (x0 x1 : Vec F S5000x128 .f32) (x2 x3 : Vec F S128x128 .f32) (x4 : Vec F S1x128 .f32) : Vec F S5000x128 .f32 :=
  View.canon [⟨rRows0, k0_pay1 (View.ld x0 rRows0) (View.ld x1 rRows0) (View.ld x2 rWeight0) (View.ld x3 rWeight0) (View.ld x4 rBias0)⟩]

theorem cover0_5 (p0 : Vec F S5000x128 .f32) (y : S5000x128.Idx) :
    ∃ pc ∈ ([⟨rRows0, p0⟩] : List (View.Piece (Elt F) S5000x128 .f32)), y ∈ pc.1.set :=
  View.cover_of_tiled [⟨rRows0, p0⟩] S5000x128.size (by rfl) y

set_option maxHeartbeats 1000000 in
-- The body loads its five inputs whole and stores relu((a·Wl + x·Wr) + b) whole: the inputs stay, the output is that store.
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare ((dat0 V c).after 5 t))

-- At every point the body meets its five input blocks and leaves them, with the output block computed from them.
theorem sound_body0 (c : Dev nD) (t : Fin cfg0.N) :
    bodyPre0 V c t ⊢ wp frame (wpE (defs₀ (F := F)) Variants.none c none) Set.univ (bodyAt0 t) (fun _ => bodyPost0 V c t) := by
  have hinv : (dat0 V c).Φ t.succ = (dat0 V c).Φ t.castSucc := rfl
  have hdebt : (dat0 V c).owesAt () t.succ = (dat0 V c).owesAt () t.castSucc := rfl
  unfold bodyPre0 bodyPost0 bodyAt0
  rw [hinv, hdebt, after0_5]
  simp only [before0_0, before0_1, before0_2, before0_3, before0_4]
  iintro ⟨Hinv, Hdebt, ⟨%_, Ha⟩, ⟨%_, Hx⟩, ⟨%_, Hwl⟩, ⟨%_, Hwr⟩, ⟨%_, Hb⟩, Hy⟩
  iapply (sound_kernel0 c Set.univ _ _ _ _ _ _ _ _ _ _ _ _ _
    (iblk0 V c 0 t) (iblk0 V c 1 t) (iblk0 V c 2 t) (iblk0 V c 3 t) (iblk0 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
import proofs.«427134_j31456340476253_1_alg».proof.Proof.Gen.Kernel.Launch
import proofs.«427134_j31456340476253_1_alg».proof.Proof.Gen.Kernel.Skeleton
import proofs.«427134_j31456340476253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRows1 : Rect S5000x128 := Rect.unit (s := S5000x128) ![0, 0] S5000x128.size inb_S5000x128_S5000x128_0_0
abbrev rWeight1 : Rect S128x128 := Rect.unit (s := S128x128) ![0, 0] S128x128.size inb_S128x128_S128x128_0_0
abbrev rBias1 : Rect S1x128 := Rect.unit (s := S1x128) ![0, 0] S1x128.size inb_S1x128_S1x128_0_0

def out1_5 (x0 x1 : Vec F S5000x128 .f32) (x2 x3 : Vec F S128x128 .f32) (x4 : Vec F S1x128 .f32) : Vec F S5000x128 .f32 :=
  View.canon [⟨rRows1, k1_pay1 (View.ld x0 rRows1) (View.ld x1 rRows1) (View.ld x2 rWeight1) (View.ld x3 rWeight1) (View.ld x4 rBias1)⟩]

theorem cover1_5 (p0 : Vec F S5000x128 .f32) (y : S5000x128.Idx) :
    ∃ pc ∈ ([⟨rRows1, p0⟩] : List (View.Piece (Elt F) S5000x128 .f32)), y ∈ pc.1.set :=
  View.cover_of_tiled [⟨rRows1, p0⟩] S5000x128.size (by rfl) y

set_option maxHeartbeats 1000000 in
-- The body loads its five inputs whole and stores relu((a·Wl + x·Wr) + b) whole: the inputs stay, the output is that store.
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare ((dat1 V c).after 5 t))

-- At every point the body meets its five input blocks and leaves them, with the output block computed from them.
theorem sound_body1 (c : Dev nD) (t : Fin cfg1.N) :
    bodyPre1 V c t ⊢ wp frame (wpE (defs₀ (F := F)) Variants.none c none) Set.univ (bodyAt1 t) (fun _ => bodyPost1 V c t) := by
  have hinv : (dat1 V c).Φ t.succ = (dat1 V c).Φ t.castSucc := rfl
  have hdebt : (dat1 V c).owesAt () t.succ = (dat1 V c).owesAt () t.castSucc := rfl
  unfold bodyPre1 bodyPost1 bodyAt1
  rw [hinv, hdebt, after1_5]
  simp only [before1_0, before1_1, before1_2, before1_3, before1_4]
  iintro ⟨Hinv, Hdebt, ⟨%_, Ha⟩, ⟨%_, Hx⟩, ⟨%_, Hwl⟩, ⟨%_, Hwr⟩, ⟨%_, Hb⟩, Hy⟩
  iapply (sound_kernel1 c Set.univ _ _ _ _ _ _ _ _ _ _ _ _ _
    (iblk1 V c 0 t) (iblk1 V c 1 t) (iblk1 V c 2 t) (iblk1 V c 3 t) (iblk1 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Reg2.lean ====
import proofs.«427134_j31456340476253_1_alg».proof.Proof.Gen.Kernel.Launch
import proofs.«427134_j31456340476253_1_alg».proof.Proof.Gen.Kernel.Skeleton
import proofs.«427134_j31456340476253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rRows2 : Rect S5000x128 := Rect.unit (s := S5000x128) ![0, 0] S5000x128.size inb_S5000x128_S5000x128_0_0
abbrev rWeight2 : Rect S128x128 := Rect.unit (s := S128x128) ![0, 0] S128x128.size inb_S128x128_S128x128_0_0
abbrev rBias2 : Rect S1x128 := Rect.unit (s := S1x128) ![0, 0] S1x128.size inb_S1x128_S1x128_0_0

def out2_5 (x0 x1 : Vec F S5000x128 .f32) (x2 x3 : Vec F S128x128 .f32) (x4 : Vec F S1x128 .f32) : Vec F S5000x128 .f32 :=
  View.canon [⟨rRows2, k2_pay1 (View.ld x0 rRows2) (View.ld x1 rRows2) (View.ld x2 rWeight2) (View.ld x3 rWeight2) (View.ld x4 rBias2)⟩]

theorem cover2_5 (p0 : Vec F S5000x128 .f32) (y : S5000x128.Idx) :
    ∃ pc ∈ ([⟨rRows2, p0⟩] : List (View.Piece (Elt F) S5000x128 .f32)), y ∈ pc.1.set :=
  View.cover_of_tiled [⟨rRows2, p0⟩] S5000x128.size (by rfl) y

set_option maxHeartbeats 1000000 in
-- The body loads its five inputs whole and stores relu((a·Wl + x·Wr) + b) whole: the inputs stay, the output is that store.
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare ((dat2 V c).after 5 t))

-- At every point the body meets its five input blocks and leaves them, with the output block computed from them.
theorem sound_body2 (c : Dev nD) (t : Fin cfg2.N) :
    bodyPre2 V c t ⊢ wp frame (wpE (defs₀ (F := F)) Variants.none c none) Set.univ (bodyAt2 t) (fun _ => bodyPost2 V c t) := by
  have hinv : (dat2 V c).Φ t.succ = (dat2 V c).Φ t.castSucc := rfl
  have hdebt : (dat2 V c).owesAt () t.succ = (dat2 V c).owesAt () t.castSucc := rfl
  unfold bodyPre2 bodyPost2 bodyAt2
  rw [hinv, hdebt, after2_5]
  simp only [before2_0, before2_1, before2_2, before2_3, before2_4]
  iintro ⟨Hinv, Hdebt, ⟨%_, Ha⟩, ⟨%_, Hx⟩, ⟨%_, Hwl⟩, ⟨%_, Hwr⟩, ⟨%_, Hb⟩, Hy⟩
  iapply (sound_kernel2 c Set.univ _ _ _ _ _ _ _ _ _ _ _ _ _
    (iblk2 V c 0 t) (iblk2 V c 1 t) (iblk2 V c 2 t) (iblk2 V c 3 t) (iblk2 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Reg3.lean ====
import proofs.«427134_j31456340476253_1_alg».proof.Proof.Gen.Kernel.Launch
import proofs.«427134_j31456340476253_1_alg».proof.Proof.Gen.Kernel.Skeleton
import proofs.«427134_j31456340476253_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rRows3 : Rect S5000x128 := Rect.unit (s := S5000x128) ![0, 0] S5000x128.size inb_S5000x128_S5000x128_0_0
abbrev rWeight3 : Rect S128x128 := Rect.unit (s := S128x128) ![0, 0] S128x128.size inb_S128x128_S128x128_0_0
abbrev rBias3 : Rect S1x128 := Rect.unit (s := S1x128) ![0, 0] S1x128.size inb_S1x128_S1x128_0_0

def out3_5 (x0 x1 : Vec F S5000x128 .f32) (x2 x3 : Vec F S128x128 .f32) (x4 : Vec F S1x128 .f32) : Vec F S5000x128 .f32 :=
  View.canon [⟨rRows3, k3_pay1 (View.ld x0 rRows3) (View.ld x1 rRows3) (View.ld x2 rWeight3) (View.ld x3 rWeight3) (View.ld x4 rBias3)⟩]

theorem cover3_5 (p0 : Vec F S5000x128 .f32) (y : S5000x128.Idx) :
    ∃ pc ∈ ([⟨rRows3, p0⟩] : List (View.Piece (Elt F) S5000x128 .f32)), y ∈ pc.1.set :=
  View.cover_of_tiled [⟨rRows3, p0⟩] S5000x128.size (by rfl) y

set_option maxHeartbeats 1000000 in
-- The body loads its five inputs whole and stores relu((a·Wl + x·Wr) + b) whole: the inputs stay, the output is that store.
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ owns (c : Thread nD τ) (st3_3 t) fullShare (iblk3 V c 3 t)
    ∗ owns (c : Thread nD τ) (st3_4 t) fullShare (iblk3 V c 4 t)
    ∗ owns (c : Thread nD τ) (st3_5 t) fullShare ((dat3 V c).after 5 t))

-- At every point the body meets its five input blocks and leaves them, with the output block computed from them.
theorem sound_body3 (c : Dev nD) (t : Fin cfg3.N) :
    bodyPre3 V c t ⊢ wp frame (wpE (defs₀ (F := F)) Variants.none c none) Set.univ (bodyAt3 t) (fun _ => bodyPost3 V c t) := by
  have hinv : (dat3 V c).Φ t.succ = (dat3 V c).Φ t.castSucc := rfl
  have hdebt : (dat3 V c).owesAt () t.succ = (dat3 V c).owesAt () t.castSucc := rfl
  unfold bodyPre3 bodyPost3 bodyAt3
  rw [hinv, hdebt, after3_5]
  simp only [before3_0, before3_1, before3_2, before3_3, before3_4]
  iintro ⟨Hinv, Hdebt, ⟨%_, Ha⟩, ⟨%_, Hx⟩, ⟨%_, Hwl⟩, ⟨%_, Hwr⟩, ⟨%_, Hb⟩, Hy⟩
  iapply (sound_kernel3 c Set.univ _ _ _ _ _ _ _ _ _ _ _ _ _
    (iblk3 V c 0 t) (iblk3 V c 1 t) (iblk3 V c 2 t) (iblk3 V c 3 t) (iblk3 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Reg4.lean ====
import proofs.«427134_j31456340476253_1_alg».proof.Proof.Gen.Kernel.Launch
import proofs.«427134_j31456340476253_1_alg».proof.Proof.Gen.Kernel.Skeleton
import proofs.«427134_j31456340476253_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel

theorem liveAt4_2 : ∀ t : Fin cfg4.N, cond4_1 (grid4.coords t) → cfg4.idle 2 (grid4.coords t) = false := by decide +kernel

theorem off4_zero : (![0, 0] : Fin 2 → ℕ) = fun _ => 0 := funext fun a => by fin_cases a <;> rfl

abbrev rA4 : Rect S64x128 := Rect.unit (s := S64x128) ![0, 0] S64x128.size inb_S64x128_S64x128_0_0

theorem cover4 (p : Vec F S64x128 .f32) (L : List (View.Piece (Elt F) S64x128 .f32)) (y : S64x128.Idx) :
    ∃ pc ∈ ((⟨rA4, p⟩ : View.Piece (Elt F) S64x128 .f32) :: L), y ∈ pc.1.set :=
  ⟨_, List.mem_cons_self, View.mem_set_unit_zero (S := S64x128) off4_zero inb_S64x128_S64x128_0_0 y⟩

theorem ldL4 (X : Vec F S5000x64 .f32) :
    View.ld X (Rect.unit (s := S5000x64) ![0, 0] S5000x64.size inb_S5000x64_S5000x64_0_0) = X :=
  View.ld_unit_zero (S := S5000x64) off4_zero inb_S5000x64_S5000x64_0_0 X
theorem ldR4 (X : Vec F S5000x128 .f32) :
    View.ld X (Rect.unit (s := S5000x128) ![0, 0] S5000x128.size inb_S5000x128_S5000x128_0_0) = X :=
  View.ld_unit_zero (S := S5000x128) off4_zero inb_S5000x128_S5000x128_0_0 X
theorem ldA4 (X : Vec F S64x128 .f32) : View.ld X rA4 = X :=
  View.ld_unit_zero (S := S64x128) off4_zero inb_S64x128_S64x128_0_0 X

theorem readCovA4 (v : View sig .tc .vmem S64x128 .f32) (w : Vec F S64x128 .f32) :
    v.readCov [(⟨rA4, w⟩ : View.Piece (Elt F) S64x128 .f32)] rA4.toLoadRect = w :=
  View.readCov_unit_zero (S := S64x128) v off4_zero inb_S64x128_S64x128_0_0 w

theorem pay2_ld4 (A : Vec F S5000x64 .f32) (B : Vec F S5000x128 .f32) (C : Vec F S64x128 .f32) :
    k4_pay2 (View.ld A (Rect.unit (s := S5000x64) ![0, 0] S5000x64.size inb_S5000x64_S5000x64_0_0))
        (View.ld B (Rect.unit (s := S5000x128) ![0, 0] S5000x128.size inb_S5000x128_S5000x128_0_0)) (View.ld C rA4)
      = k4_pay2 A B C := by
  rw [ldL4, ldR4, ldA4]

set_option maxHeartbeats 1000000 in

theorem run4_A (c : Dev nD) (E : Set ℕ) (i : grid4.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : cond4_0 i) (hc1 : ¬cond4_1 i)
    (x0 : Vec F S5000x64 .f32) (x1 : Vec F S5000x128 .f32) (xo : Vec F S64x128 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover4 _ _), View.canon_cons_unit_zero (S := S64x128) off4_zero]
  simp only [View.readAt_eq_ld]
  exact congr (congr (congrArg k4_pay2 (ldL4 _)) (ldR4 _)) (readCovA4 _ _)

set_option maxHeartbeats 1000000 in

theorem run4_B (c : Dev nD) (E : Set ℕ) (i : grid4.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : ¬cond4_1 i)
    (x0 : Vec F S5000x64 .f32) (x1 : Vec F S5000x128 .f32) (xo acc : Vec F S64x128 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare acc
        ∗ (iprop(owns (c : Thread nD τ) arg1 fullShare x0 ∗ owns (c : Thread nD τ) arg2 fullShare x1 ∗ owns (c : Thread nD τ) arg3 fullShare xo
            ∗ owns (c : Thread nD τ) arg4 fullShare (k4_pay2 x0 x1 acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover4 _ _), View.canon_cons_unit_zero (S := S64x128) off4_zero]
  simp only [View.readAt_eq_ld]
  exact pay2_ld4 _ _ _

set_option maxHeartbeats 1000000 in

theorem run4_C (c : Dev nD) (E : Set ℕ) (i : grid4.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : cond4_1 i)
    (x0 : Vec F S5000x64 .f32) (x1 : Vec F S5000x128 .f32) (acc : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare acc
        ∗ (iprop(owns (c : Thread nD τ) arg1 fullShare x0 ∗ owns (c : Thread nD τ) arg2 fullShare x1 ∗ owns (c : Thread nD τ) arg3 fullShare (k4_pay2 x0 x1 acc)
            ∗ owns (c : Thread nD τ) arg4 fullShare (k4_pay2 x0 x1 acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover4 _ _), View.canon_cons_unit_zero (S := S64x128) off4_zero]
    simp only [View.readAt_eq_ld]
    exact (readCovA4 _ _).trans (pay2_ld4 _ _ _)
  iexists _; isplitr
  swap; · iexact H3
  ipureintro
  sl_unfold_run_names
  rw [View.read_writes_eq_canon _ _ _ (cover4 _ _), View.canon_cons_unit_zero (S := S64x128) off4_zero]
  simp only [View.readAt_eq_ld]
  exact pay2_ld4 _ _ _

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S64x128 .f32 := Memref.whole cc4_scratch0

def accAt (c : Dev nD) : (n : ℕ) → n < cfg4.N → Vec F S64x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (accAt c n (Nat.lt_of_succ_lt hn))

theorem accAt_zero (c : Dev nD) (hn : 0 < cfg4.N) :
    accAt V c 0 hn = k4_pay2 (iblk4 V c 0 ⟨0, hn⟩) (iblk4 V c 1 ⟨0, hn⟩) (k4_pay1 (F := F)) := rfl

theorem accAt_succ (c : Dev nD) (n : ℕ) (hn : n + 1 < cfg4.N) :
    accAt V c (n + 1) hn = k4_pay2 (iblk4 V c 0 ⟨n + 1, hn⟩) (iblk4 V c 1 ⟨n + 1, hn⟩) (accAt V c n (Nat.lt_of_succ_lt hn)) := rfl

def PhiP (c : Dev nD) : (n : ℕ) → n ≤ cfg4.N → sProp 𝕄
  | 0, _ => Pipeline.ΦA spec4 c
  | n + 1, hn => iprop(owns (c : Thread nD τ) scM4 fullShare (accAt V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt V c t.val t.isLt
  Φ t := PhiP V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt V c t.val t.isLt := by dsimp only [dat4]

theorem accAt_first (c : Dev nD) (t : Fin cfg4.N) (h0 : t.val = 0) :
    accAt V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

theorem accAt_later (c : Dev nD) (t : Fin cfg4.N) (h0 : t.val ≠ 0) :
    accAt V c t.val t.isLt
      = k4_pay2 (iblk4 V c 0 t) (iblk4 V c 1 t) (accAt V c (t.val - 1) (Nat.lt_of_le_of_lt (Nat.sub_le _ _) t.isLt)) := by
  obtain ⟨n, hn⟩ := t
  cases n with
  | zero => exact absurd rfl h0
  | succ n => rfl

theorem PhiP_zero (c : Dev nD) (n : ℕ) (h : n ≤ cfg4.N) (hz : n = 0) : PhiP V c n h = Pipeline.ΦA spec4 c := by
  subst hz; rfl

theorem PhiP_succ (c : Dev nD) (n : ℕ) (hn : n < cfg4.N) :
    PhiP V c (n + 1) hn = iprop(owns (c : Thread nD τ) scM4 fullShare (accAt V c n hn)
      ∗ Pipeline.scopedRestBut (Ix := Unit) (Name := ℕ) (U := UR sig nD τ) (Lvl := ℕ) (Val := Elt F) spec4 c [cc4_scratch0]
      ∗ (∃ r, prngReg c r)) := rfl

theorem PhiP_pos (c : Dev nD) (n : ℕ) (h : n ≤ cfg4.N) (hz : n ≠ 0) :
    PhiP V c n h = iprop(owns (c : Thread nD τ) scM4 fullShare (accAt V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; rfl

theorem before4_0 (c : Dev nD) (t : Fin cfg4.N) (d) : (dat4 V c).before 0 t d = iblk4 V c 0 t :=
  ((dat4 V c).before_fetched 0 t (fetch4_0 t) d).trans (by unfold Dat.fetched Dat.blockOf iblk4; rw [A_eq4]; rfl)

theorem before4_1 (c : Dev nD) (t : Fin cfg4.N) (d) : (dat4 V c).before 1 t d = iblk4 V c 1 t :=
  ((dat4 V c).before_fetched 1 t (fetch4_1 t) d).trans (by unfold Dat.fetched Dat.blockOf iblk4; rw [A_eq4]; rfl)

abbrev mL4 (t : Fin cfg4.N) : Memref sig .tc .vmem S5000x64 .f32 := win4_0.stage (cfg4.slots t 0)
abbrev mR4 (t : Fin cfg4.N) : Memref sig .tc .vmem S5000x128 .f32 := win4_1.stage (cfg4.slots t 1)
abbrev mO4 (t : Fin cfg4.N) : Memref sig .tc .vmem S64x128 .f32 := win4_2.stage (cfg4.slots t 2)

def bodyPre4 (c : Dev nD) (t : Fin cfg4.N) : sProp 𝕄 :=
  iprop((dat4 V c).Φ t.castSucc ∗ (dat4 V c).owesAt () t.castSucc
    ∗ (∃ d, owns (c : Thread nD τ) (mL4 t) fullShare ((dat4 V c).before 0 t d))
    ∗ (∃ d, owns (c : Thread nD τ) (mR4 t) fullShare ((dat4 V c).before 1 t d))
    ∗ (∃ d, owns (c : Thread nD τ) (mO4 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).leavesExact 0 t = owns (c : Thread nD τ) (mL4 t) fullShare ((dat4 V c).after 0 t) from by
    unfold Dat.leavesExact; rw [liveAt4_0 t], after4_0]
  rw [show (dat4 V c).leavesExact 1 t = owns (c : Thread nD τ) (mR4 t) fullShare ((dat4 V c).after 1 t) from by
    unfold Dat.leavesExact; rw [liveAt4_1 t], after4_1]
  rw [show (dat4 V c).Φ t.castSucc = PhiP V c t.val (Nat.le_of_lt t.isLt) from rfl]
  rw [show (dat4 V c).Φ t.succ = PhiP V c (t.val + 1) t.isLt from rfl, PhiP_succ]
  by_cases h0 : t.val = 0
  ·
    have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1)]
    rw [PhiP_zero V c _ _ h0, PhiA4_eq, accAt_first V c t h0]
    iintro ⟨⟨⟨HS, HR⟩, Hg⟩, Ho, ⟨%d0, H0⟩, ⟨%d1, H1⟩, ⟨%d2, H2⟩⟩
    iapply (run4_A c Set.univ (grid4.coords t) _ _ _ _ _ _ _ _ hc0 hc1 (iblk4 V c 0 t) (iblk4 V c 1 t) _ _)
    isplitl [H0]; · iexact H0
    isplitl [H1]; · iexact H1
    isplitl [H2]; · iexact H2
    isplitl [HS]; · iexact HS
    iintro ⟨H0, H1, H2, HS⟩
    iframe
    iexists d2; iexact H2
  · have hc0 : ¬cond4_0 (grid4.coords t) := fun h => h0 ((hcond4_0 t).mp h)
    rw [PhiP_pos V c _ _ h0, accAt_later V c t h0]
    by_cases h9 : t.val = 9
    ·
      have hc1 : cond4_1 (grid4.coords t) := (hcond4_1 t).mpr h9
      rw [show (dat4 V c).leavesExact 2 t = owns (c : Thread nD τ) (mO4 t) fullShare ((dat4 V c).after 2 t) from by
        unfold Dat.leavesExact; rw [liveAt4_2 t hc1], after4_2, accAt_later V c t h0]
      iintro ⟨⟨HS, HR, Hg⟩, Ho, ⟨%d0, H0⟩, ⟨%d1, H1⟩, ⟨%d2, H2⟩⟩
      iapply (run4_C c Set.univ (grid4.coords t) _ _ _ _ _ _ _ _ hc0 hc1 (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      iframe
    ·
      have hc1 : ¬cond4_1 (grid4.coords t) := fun h => h9 ((hcond4_1 t).mp h)
      rw [Dat.leavesExact_idle (dat4 V c) 2 t (idleAt4_2 t hc1) (noFlush4_2 t hc1)]
      iintro ⟨⟨HS, HR, Hg⟩, Ho, ⟨%d0, H0⟩, ⟨%d1, H1⟩, ⟨%d2, H2⟩⟩
      iapply (run4_B c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      iframe
      iexists d2; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiP V c 0 (Nat.zero_le _) from rfl, PhiP_zero V c 0 _ rfl]

theorem hout4 (c : Dev nD) : (dat4 V c).Φ (Fin.last cfg4.N) ⊢ Pipeline.ΦA spec4 c := by
  rw [show (dat4 V c).Φ (Fin.last cfg4.N) = PhiP V c (Fin.last cfg4.N).val (Nat.le_of_lt_succ (Fin.last cfg4.N).isLt) from rfl,
    PhiP_pos V c _ _ (by rw [Fin.val_last]; have : cfg4.N = 10 := N_4; omega), PhiA4_eq]
  iintro ⟨HS, HR, Hg⟩
  isplitl [HS HR]
  · isplitl [HS]; · iexists _; iexact HS
    iexact HR
  iexact Hg

end Region4

end Cert.Kernel.Hand

end
-- ==== Proof.K.Run.lean ====
import proofs.«427134_j31456340476253_1_alg».proof.Proof.Gen.Kernel.Regions
import proofs.«427134_j31456340476253_1_alg».proof.Proof.K.Reg0
import proofs.«427134_j31456340476253_1_alg».proof.Proof.K.Reg1
import proofs.«427134_j31456340476253_1_alg».proof.Proof.K.Reg2
import proofs.«427134_j31456340476253_1_alg».proof.Proof.K.Reg3
import proofs.«427134_j31456340476253_1_alg».proof.Proof.K.Reg4

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- An input window's array keeps its entry contents, and `withArrays` changes the windows' arrays only. -/
theorem keep {cfg : Cfg sig Λ₀} {c : Dev nD} (dat : Dat τ (Elt F) Unit ℕ (UR sig nD τ) ℕ cfg c) {V : Valuation τ sig (Elt F)}
    {o : Ref sig .tc} (hinj : Function.Injective (Pipeline.arrRef cfg.spec))
    (hin : ∀ w, Pipeline.arrRef cfg.spec w ≠ o → (cfg.win w).isOut = false)
    (hA : ∀ w, dat.A w = V (Proc.devRef .tc (Pipeline.arrRef cfg.spec w))) (r : Ref sig .tc) (hr : r ≠ o) :
    Pipeline.withArrays cfg.spec c V (dat.arrAt · cfg.N) (Proc.devRef .tc r) = V (Proc.devRef .tc r) := by
  by_cases h : ∃ w, Pipeline.arrRef cfg.spec w = r
  · obtain ⟨w, rfl⟩ := h
    exact (Pipeline.withArrays_arr _ hinj c _ _ w).trans ((dat.arrAt_in w (hin w hr) _).trans (hA w))
  · exact Pipeline.withArrays_of_ne _ c _ _ r fun w e => h ⟨w, e⟩

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
theorem W1_of (c : Dev nD) (b : Ref sig .tc) (h : b ∉ hostOps0_W) :
    W1 m c (Proc.devRef .tc b) = W0 m c (Proc.devRef .tc b) :=
  StableHlo.after_of_writes_sub hostOps0 _ hostOps0_writes h
abbrev W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N :=
  Pipeline.withArrays_arr spec0 launch0.win.arr_inj c _ _ w
theorem W2_keep (c : Dev nD) (r : Ref sig .tc) (hr : r ≠ main_v24) :
    W2 m c (Proc.devRef .tc r) = W1 m c (Proc.devRef .tc r) :=
  keep (dat0 (U1 m) c) launch0.win.arr_inj (by decide) (A_eq0 (U1 m) c) r hr
abbrev W3 : Dev nD → Valuation τ sig (Elt F) := fun c => StableHlo.after hostOps1 (W2 m c)
abbrev U3 : (c : Dev nD) → (b : Ref sig .tc) → Buf (Elt F) ((c : Thread nD τ).loc b) := fun c b => W3 m c b
theorem W3_of (c : Dev nD) (b : Ref sig .tc) (h : b ∉ hostOps1_W) :
    W3 m c (Proc.devRef .tc b) = W2 m c (Proc.devRef .tc b) :=
  StableHlo.after_of_writes_sub hostOps1 _ hostOps1_writes h
abbrev W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N :=
  Pipeline.withArrays_arr spec1 launch1.win.arr_inj c _ _ w
theorem W4_keep (c : Dev nD) (r : Ref sig .tc) (hr : r ≠ main_v38) :
    W4 m c (Proc.devRef .tc r) = W3 m c (Proc.devRef .tc r) :=
  keep (dat1 (U3 m) c) launch1.win.arr_inj (by decide) (A_eq1 (U3 m) c) r hr
abbrev W5 : Dev nD → Valuation τ sig (Elt F) := fun c => StableHlo.after hostOps2 (W4 m c)
abbrev U5 : (c : Dev nD) → (b : Ref sig .tc) → Buf (Elt F) ((c : Thread nD τ).loc b) := fun c b => W5 m c b
theorem W5_of (c : Dev nD) (b : Ref sig .tc) (h : b ∉ hostOps2_W) :
    W5 m c (Proc.devRef .tc b) = W4 m c (Proc.devRef .tc b) :=
  StableHlo.after_of_writes_sub hostOps2 _ hostOps2_writes h
abbrev W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_keep (c : Dev nD) (r : Ref sig .tc) (hr : r ≠ main_v52) :
    W6 m c (Proc.devRef .tc r) = W5 m c (Proc.devRef .tc r) :=
  keep (dat2 (U5 m) c) launch2.win.arr_inj (by decide) (A_eq2 (U5 m) c) r hr
abbrev W7 : Dev nD → Valuation τ sig (Elt F) := fun c => StableHlo.after hostOps3 (W6 m c)
abbrev U7 : (c : Dev nD) → (b : Ref sig .tc) → Buf (Elt F) ((c : Thread nD τ).loc b) := fun c b => W7 m c b
theorem W7_of (c : Dev nD) (b : Ref sig .tc) (h : b ∉ hostOps3_W) :
    W7 m c (Proc.devRef .tc b) = W6 m c (Proc.devRef .tc b) :=
  StableHlo.after_of_writes_sub hostOps3 _ hostOps3_writes h
abbrev W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N :=
  Pipeline.withArrays_arr spec3 launch3.win.arr_inj c _ _ w
theorem W8_keep (c : Dev nD) (r : Ref sig .tc) (hr : r ≠ main_v66) :
    W8 m c (Proc.devRef .tc r) = W7 m c (Proc.devRef .tc r) :=
  keep (dat3 (U7 m) c) launch3.win.arr_inj (by decide) (A_eq3 (U7 m) c) r hr
abbrev W9 : Dev nD → Valuation τ sig (Elt F) := fun c => StableHlo.after hostOps4 (W8 m c)
abbrev U9 : (c : Dev nD) → (b : Ref sig .tc) → Buf (Elt F) ((c : Thread nD τ).loc b) := fun c b => W9 m c b
theorem W9_of (c : Dev nD) (b : Ref sig .tc) (h : b ∉ hostOps4_W) :
    W9 m c (Proc.devRef .tc b) = W8 m c (Proc.devRef .tc b) :=
  StableHlo.after_of_writes_sub hostOps4 _ hostOps4_writes h
abbrev W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N :=
  Pipeline.withArrays_arr spec4 launch4.win.arr_inj c _ _ w
theorem W10_keep (c : Dev nD) (r : Ref sig .tc) (hr : r ≠ main_v77) :
    W10 m c (Proc.devRef .tc r) = W9 m c (Proc.devRef .tc r) :=
  keep (dat4 (U9 m) c) launch4.win.arr_inj (by decide) (A_eq4 (U9 m) c) r hr
abbrev W11 : Dev nD → Valuation τ sig (Elt F) := fun c => StableHlo.after hostOps5 (W10 m c)
theorem W11_of (c : Dev nD) (b : Ref sig .tc) (h : b ∉ hostOps5_W) :
    W11 m c (Proc.devRef .tc b) = W10 m c (Proc.devRef .tc b) :=
  StableHlo.after_of_writes_sub hostOps5 _ hostOps5_writes h

/-- Each host stretch leaves such a buffer alone, and so does each region, of which it is not the output. -/
theorem W11_launch (c : Dev nD) (r : Ref sig .tc)
    (hw : r ∉ hostOps0_W ++ hostOps1_W ++ hostOps2_W ++ hostOps3_W ++ hostOps4_W ++ hostOps5_W)
    (ho : r ∉ ([main_v24, main_v38, main_v52, main_v66, main_v77] : List (Ref sig .tc))) :
    W11 m c (Proc.devRef .tc r) = m ((c : Thread nD τ).loc r) := by
  simp only [List.mem_append, not_or] at hw
  simp only [List.mem_cons, List.not_mem_nil, or_false, not_or] at ho
  obtain ⟨⟨⟨⟨⟨w0, w1⟩, w2⟩, w3⟩, w4⟩, w5⟩ := hw
  obtain ⟨o0, o1, o2, o3, o4⟩ := ho
  exact (W11_of m c r w5).trans <| (W10_keep m c r o4).trans <| (W9_of m c r w4).trans <| (W8_keep m c r o3).trans <|
    (W7_of m c r w3).trans <| (W6_keep m c r o2).trans <| (W5_of m c r w2).trans <| (W4_keep m c r o1).trans <|
    (W3_of m c r w1).trans <| (W2_keep m c r o0).trans <| W1_of m c r w0

def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c

theorem pdats_plain : ∀ p c, (∀ w, (pdats m p c).q w = fullShare) ∧ (∀ t, (pdats m p c).owed t = 0) ∧ (pdats m p c).recorded 0 = Set.univ
  | ⟨0, _⟩, _ | ⟨1, _⟩, _ | ⟨2, _⟩, _ | ⟨3, _⟩, _ | ⟨4, _⟩, _ => ⟨fun _ => rfl, fun _ => rfl, rfl⟩

abbrev noPairs : GSem nD τ sig → Finset Unit := fun _ => ∅
abbrev level0 : GSem nD τ sig → Unit → ℕ := fun _ _ => 0
abbrev rider (c : Dev nD) : sProp 𝕄 :=
  iprop((∃ r, prngReg c r) ∗ ∃ T, owes (c : Thread nD τ) (0 : CellTallies nD τ sig Unit) T)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- Region `p` as a segment of the run, from the contents `V` to `V` with the region's arrays at their last contents. -/
def reg (p : Fin 5) (lf : Pipeline.LaunchFacts (nD := nD) (τ := τ) cfgs p) (V : Dev nD → Valuation τ sig (Elt F))
    (hb : ∀ c, BodyObligation (pdats m p c) (defs₀ (F := F)) Variants.none () Set.univ)
    (hA : ∀ c w, (pdats m p c).A w = V c (Proc.devRef .tc (Pipeline.arrRef (cfgs p).spec w)))
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ Variants.none noPairs level0 p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noPairs level0 p fun c => (pdats_plain m p c).2.1
  pre c := iprop(StableHlo.held (c : Thread nD τ) (Pipeline.ucRefs τ sig) (V c) ∗ rider c)
  post c := iprop(StableHlo.held (c : Thread nD τ) (Pipeline.ucRefs τ sig)
    (Pipeline.withArrays (cfgs p).spec c (V c) fun w => (pdats m p c).arrAt w (cfgs p).N) ∗ rider c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨hq, h0, hr⟩ := pdats_plain m p c
    have hsplit := Pipeline.arrays_of_unscopedBufs (p := p) (pcfgs (F := F)) adm (pdats m) lf.win lf.arr_whole c
      ((pdats m p c).share_full hq) (fun b => V c b) (hA c)
    rw [Pipeline.unscopedBufs_held] at hsplit
    rw [Pipeline.ownSems0_none]
    unfold Pipeline.Dat.owesAt Pipeline.owesWithin Pipeline.Dat.bound
    rw [h0, hr]
    iintro ⟨⟨Hbufs, Hg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · icases Howes with ⟨%T, Howes⟩; iexists T; isplitr; · ipureintro; exact fun _ _ => Or.inl trivial
      iexact Howes
    isplitl [Hg]; · iexact Hg
    iexact Hrest
  hin c := by
    have key := hin c
    unfold Pipeline.ΦA at key
    iintro ⟨Hg, -, Hs⟩
    iapply key
    isplitl [Hs]; · iexact Hs
    iexact Hg
  hout c := by
    rw [Pipeline.ownSems0_none]
    have key := hout c
    unfold Pipeline.ΦA at key
    iintro H
    ihave H' := key $$ H
    icases H' with ⟨Hs, Hg⟩
    isplitl [Hg]; · iexact Hg
    isplitr; · iempintro
    iexact Hs
  hexit c := by
    obtain ⟨hq, h0, -⟩ := pdats_plain m p c
    have hjoin := Pipeline.unscopedBufs_of_arrays (p := p) (pcfgs (F := F)) adm (Ix := Unit) (Name := ℕ) (U := UR sig nD τ) (Lvl := ℕ)
      lf.win lf.arr_whole c (pdats m) ((pdats m p c).share_full hq) (fun b => V c b)
      (fun b => Pipeline.withArrays (cfgs p).spec c (V c) (fun w => (pdats m p c).arrAt w (cfgs p).N) b)
      ((pdats m p c).arrAt · (cfgs p).N) (fun w => Eq.symm (Pipeline.withArrays_arr _ lf.win.arr_inj c _ _ w))
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [h0]
    iintro ⟨Harr, Howes, Hg, Hrest⟩
    imodintro
    isplitl [Harr Hrest]
    · iapply hjoin; isplitl [Harr] <;> iassumption
    isplitl [Hg]; · iexact Hg
    icases Howes with ⟨%T, -, Howes⟩; iexists T; iexact Howes

abbrev runSegs : List (Pipeline.Seg (pcfgs (F := F)) adm (pdats m) () defs₀ Variants.none noPairs level0) :=
  [
    .host (hostSeg hostOps0 hostOps0_sub hostOps0_fresh (W0 m)),
    .region (reg m 0 launch0 (W1 m) (body_obligation0 (U1 m)) (A_eq0 (U1 m)) (fun _ => .rfl) fun _ => .rfl),
    .host (hostSeg hostOps1 hostOps1_sub hostOps1_fresh (W2 m)),
    .region (reg m 1 launch1 (W3 m) (body_obligation1 (U3 m)) (A_eq1 (U3 m)) (fun _ => .rfl) fun _ => .rfl),
    .host (hostSeg hostOps2 hostOps2_sub hostOps2_fresh (W4 m)),
    .region (reg m 2 launch2 (W5 m) (body_obligation2 (U5 m)) (A_eq2 (U5 m)) (fun _ => .rfl) fun _ => .rfl),
    .host (hostSeg hostOps3 hostOps3_sub hostOps3_fresh (W6 m)),
    .region (reg m 3 launch3 (W7 m) (body_obligation3 (U7 m)) (A_eq3 (U7 m)) (fun _ => .rfl) fun _ => .rfl),
    .host (hostSeg hostOps4 hostOps4_sub hostOps4_fresh (W8 m)),
    .region (reg m 4 launch4 (W9 m) (body_obligation4 (U9 m)) (A_eq4 (U9 m)) (hin4 (U9 m)) (hout4 (U9 m))),
    .host (hostSeg hostOps5 hostOps5_sub hostOps5_fresh (W10 m)) ]

theorem main_run (c : Dev nD) : main (F := F) c = Pipeline.Seg.run (runSegs m) := by
  rewrite [main_chain c, Pipeline.Seg.run_eq_chain]
  rfl

set_option backward.isDefEq.respectTransparency.types false in
theorem run : θ_run defs (onTc (τ := τ) (main (F := F))) ⟨m, fun _ => 0, ρ⟩ (fun r => ∀ c : Dev nD,
      r.2.mem ((c.tc : Thread nD τ).loc main_v90) = W11 m c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m) () cellOf_inj emb₁ defs₀ Variants.none noPairs level0 m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rider c)) (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach noPairs level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Howes, -, Hg, -⟩, -⟩
      imodintro
      isplitl [Hh]; · iexact Hh
      isplitl [Hg]; · iexists _; iexact Hg
      iexists ∅; iexact Howes)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => by
      refine ⟨h c _ (mem_ucRefs _ (by decide)), ?_⟩
      and_intros <;> exact (h c _ (mem_ucRefs _ (by decide))).trans (W11_launch m c _ (by decide) (by decide)))

end Cert.Kernel.Hand

end
-- ==== Proof.KI.Reg0.lean ====
import proofs.«427134_j31456340476253_1_alg».proof.Proof.Gen.KernelIdeal.Launch
import proofs.«427134_j31456340476253_1_alg».proof.Proof.Gen.KernelIdeal.Skeleton
import proofs.«427134_j31456340476253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rRows0 : Rect S5000x128 := Rect.unit (s := S5000x128) ![0, 0] S5000x128.size inb_S5000x128_S5000x128_0_0
abbrev rWeight0 : Rect S128x128 := Rect.unit (s := S128x128) ![0, 0] S128x128.size inb_S128x128_S128x128_0_0
abbrev rBias0 : Rect S1x128 := Rect.unit (s := S1x128) ![0, 0] S1x128.size inb_S1x128_S1x128_0_0

def out0_5 (x0 x1 : Vec F S5000x128 .f32) (x2 x3 : Vec F S128x128 .f32) (x4 : Vec F S1x128 .f32) : Vec F S5000x128 .f32 :=
  View.canon [⟨rRows0, k0_pay1 (View.ld x0 rRows0) (View.ld x1 rRows0) (View.ld x2 rWeight0) (View.ld x3 rWeight0) (View.ld x4 rBias0)⟩]

theorem cover0_5 (p0 : Vec F S5000x128 .f32) (y : S5000x128.Idx) :
    ∃ pc ∈ ([⟨rRows0, p0⟩] : List (View.Piece (Elt F) S5000x128 .f32)), y ∈ pc.1.set :=
  View.cover_of_tiled [⟨rRows0, p0⟩] S5000x128.size (by rfl) y

set_option maxHeartbeats 1000000 in
-- The body loads its five inputs whole and stores relu((a·Wl + x·Wr) + b) whole: the inputs stay, the output is that store.
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare ((dat0 V c).after 5 t))

-- At every point the body meets its five input blocks and leaves them, with the output block computed from them.
theorem sound_body0 (c : Dev nD) (t : Fin cfg0.N) :
    bodyPre0 V c t ⊢ wp frame (wpE (defs₀ (F := F)) Variants.none c none) Set.univ (bodyAt0 t) (fun _ => bodyPost0 V c t) := by
  have hinv : (dat0 V c).Φ t.succ = (dat0 V c).Φ t.castSucc := rfl
  have hdebt : (dat0 V c).owesAt () t.succ = (dat0 V c).owesAt () t.castSucc := rfl
  unfold bodyPre0 bodyPost0 bodyAt0
  rw [hinv, hdebt, after0_5]
  simp only [before0_0, before0_1, before0_2, before0_3, before0_4]
  iintro ⟨Hinv, Hdebt, ⟨%_, Ha⟩, ⟨%_, Hx⟩, ⟨%_, Hwl⟩, ⟨%_, Hwr⟩, ⟨%_, Hb⟩, Hy⟩
  iapply (sound_kernel0 c Set.univ _ _ _ _ _ _ _ _ _ _ _ _ _
    (iblk0 V c 0 t) (iblk0 V c 1 t) (iblk0 V c 2 t) (iblk0 V c 3 t) (iblk0 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
import proofs.«427134_j31456340476253_1_alg».proof.Proof.Gen.KernelIdeal.Launch
import proofs.«427134_j31456340476253_1_alg».proof.Proof.Gen.KernelIdeal.Skeleton
import proofs.«427134_j31456340476253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rRows1 : Rect S5000x128 := Rect.unit (s := S5000x128) ![0, 0] S5000x128.size inb_S5000x128_S5000x128_0_0
abbrev rWeight1 : Rect S128x128 := Rect.unit (s := S128x128) ![0, 0] S128x128.size inb_S128x128_S128x128_0_0
abbrev rBias1 : Rect S1x128 := Rect.unit (s := S1x128) ![0, 0] S1x128.size inb_S1x128_S1x128_0_0

def out1_5 (x0 x1 : Vec F S5000x128 .f32) (x2 x3 : Vec F S128x128 .f32) (x4 : Vec F S1x128 .f32) : Vec F S5000x128 .f32 :=
  View.canon [⟨rRows1, k1_pay1 (View.ld x0 rRows1) (View.ld x1 rRows1) (View.ld x2 rWeight1) (View.ld x3 rWeight1) (View.ld x4 rBias1)⟩]

theorem cover1_5 (p0 : Vec F S5000x128 .f32) (y : S5000x128.Idx) :
    ∃ pc ∈ ([⟨rRows1, p0⟩] : List (View.Piece (Elt F) S5000x128 .f32)), y ∈ pc.1.set :=
  View.cover_of_tiled [⟨rRows1, p0⟩] S5000x128.size (by rfl) y

set_option maxHeartbeats 1000000 in
-- The body loads its five inputs whole and stores relu((a·Wl + x·Wr) + b) whole: the inputs stay, the output is that store.
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare ((dat1 V c).after 5 t))

-- At every point the body meets its five input blocks and leaves them, with the output block computed from them.
theorem sound_body1 (c : Dev nD) (t : Fin cfg1.N) :
    bodyPre1 V c t ⊢ wp frame (wpE (defs₀ (F := F)) Variants.none c none) Set.univ (bodyAt1 t) (fun _ => bodyPost1 V c t) := by
  have hinv : (dat1 V c).Φ t.succ = (dat1 V c).Φ t.castSucc := rfl
  have hdebt : (dat1 V c).owesAt () t.succ = (dat1 V c).owesAt () t.castSucc := rfl
  unfold bodyPre1 bodyPost1 bodyAt1
  rw [hinv, hdebt, after1_5]
  simp only [before1_0, before1_1, before1_2, before1_3, before1_4]
  iintro ⟨Hinv, Hdebt, ⟨%_, Ha⟩, ⟨%_, Hx⟩, ⟨%_, Hwl⟩, ⟨%_, Hwr⟩, ⟨%_, Hb⟩, Hy⟩
  iapply (sound_kernel1 c Set.univ _ _ _ _ _ _ _ _ _ _ _ _ _
    (iblk1 V c 0 t) (iblk1 V c 1 t) (iblk1 V c 2 t) (iblk1 V c 3 t) (iblk1 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Reg2.lean ====
import proofs.«427134_j31456340476253_1_alg».proof.Proof.Gen.KernelIdeal.Launch
import proofs.«427134_j31456340476253_1_alg».proof.Proof.Gen.KernelIdeal.Skeleton
import proofs.«427134_j31456340476253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rRows2 : Rect S5000x128 := Rect.unit (s := S5000x128) ![0, 0] S5000x128.size inb_S5000x128_S5000x128_0_0
abbrev rWeight2 : Rect S128x128 := Rect.unit (s := S128x128) ![0, 0] S128x128.size inb_S128x128_S128x128_0_0
abbrev rBias2 : Rect S1x128 := Rect.unit (s := S1x128) ![0, 0] S1x128.size inb_S1x128_S1x128_0_0

def out2_5 (x0 x1 : Vec F S5000x128 .f32) (x2 x3 : Vec F S128x128 .f32) (x4 : Vec F S1x128 .f32) : Vec F S5000x128 .f32 :=
  View.canon [⟨rRows2, k2_pay1 (View.ld x0 rRows2) (View.ld x1 rRows2) (View.ld x2 rWeight2) (View.ld x3 rWeight2) (View.ld x4 rBias2)⟩]

theorem cover2_5 (p0 : Vec F S5000x128 .f32) (y : S5000x128.Idx) :
    ∃ pc ∈ ([⟨rRows2, p0⟩] : List (View.Piece (Elt F) S5000x128 .f32)), y ∈ pc.1.set :=
  View.cover_of_tiled [⟨rRows2, p0⟩] S5000x128.size (by rfl) y

set_option maxHeartbeats 1000000 in
-- The body loads its five inputs whole and stores relu((a·Wl + x·Wr) + b) whole: the inputs stay, the output is that store.
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (iblk2 V c 4 t)
    ∗ owns (c : Thread nD τ) (st2_5 t) fullShare ((dat2 V c).after 5 t))

-- At every point the body meets its five input blocks and leaves them, with the output block computed from them.
theorem sound_body2 (c : Dev nD) (t : Fin cfg2.N) :
    bodyPre2 V c t ⊢ wp frame (wpE (defs₀ (F := F)) Variants.none c none) Set.univ (bodyAt2 t) (fun _ => bodyPost2 V c t) := by
  have hinv : (dat2 V c).Φ t.succ = (dat2 V c).Φ t.castSucc := rfl
  have hdebt : (dat2 V c).owesAt () t.succ = (dat2 V c).owesAt () t.castSucc := rfl
  unfold bodyPre2 bodyPost2 bodyAt2
  rw [hinv, hdebt, after2_5]
  simp only [before2_0, before2_1, before2_2, before2_3, before2_4]
  iintro ⟨Hinv, Hdebt, ⟨%_, Ha⟩, ⟨%_, Hx⟩, ⟨%_, Hwl⟩, ⟨%_, Hwr⟩, ⟨%_, Hb⟩, Hy⟩
  iapply (sound_kernel2 c Set.univ _ _ _ _ _ _ _ _ _ _ _ _ _
    (iblk2 V c 0 t) (iblk2 V c 1 t) (iblk2 V c 2 t) (iblk2 V c 3 t) (iblk2 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Reg3.lean ====
import proofs.«427134_j31456340476253_1_alg».proof.Proof.Gen.KernelIdeal.Launch
import proofs.«427134_j31456340476253_1_alg».proof.Proof.Gen.KernelIdeal.Skeleton
import proofs.«427134_j31456340476253_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rRows3 : Rect S5000x128 := Rect.unit (s := S5000x128) ![0, 0] S5000x128.size inb_S5000x128_S5000x128_0_0
abbrev rWeight3 : Rect S128x128 := Rect.unit (s := S128x128) ![0, 0] S128x128.size inb_S128x128_S128x128_0_0
abbrev rBias3 : Rect S1x128 := Rect.unit (s := S1x128) ![0, 0] S1x128.size inb_S1x128_S1x128_0_0

def out3_5 (x0 x1 : Vec F S5000x128 .f32) (x2 x3 : Vec F S128x128 .f32) (x4 : Vec F S1x128 .f32) : Vec F S5000x128 .f32 :=
  View.canon [⟨rRows3, k3_pay1 (View.ld x0 rRows3) (View.ld x1 rRows3) (View.ld x2 rWeight3) (View.ld x3 rWeight3) (View.ld x4 rBias3)⟩]

theorem cover3_5 (p0 : Vec F S5000x128 .f32) (y : S5000x128.Idx) :
    ∃ pc ∈ ([⟨rRows3, p0⟩] : List (View.Piece (Elt F) S5000x128 .f32)), y ∈ pc.1.set :=
  View.cover_of_tiled [⟨rRows3, p0⟩] S5000x128.size (by rfl) y

set_option maxHeartbeats 1000000 in
-- The body loads its five inputs whole and stores relu((a·Wl + x·Wr) + b) whole: the inputs stay, the output is that store.
theorem sound_kernel3 (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d
theorem before3_3 (c : Dev nD) (t : Fin cfg3.N) (d) : (dat3 V c).before 3 t d = iblk3 V c 3 t :=
  (dat3 V c).before_in_eq_fetched 3 rfl (fun _ => rfl) (fun _ _ _ => rfl) (fun _ => rfl) t d
theorem before3_4 (c : Dev nD) (t : Fin cfg3.N) (d) : (dat3 V c).before 4 t d = iblk3 V c 4 t :=
  (dat3 V c).before_in_eq_fetched 4 rfl (fun _ => rfl) (fun _ _ _ => rfl) (fun _ => rfl) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare (iblk3 V c 0 t)
    ∗ owns (c : Thread nD τ) (st3_1 t) fullShare (iblk3 V c 1 t)
    ∗ owns (c : Thread nD τ) (st3_2 t) fullShare (iblk3 V c 2 t)
    ∗ owns (c : Thread nD τ) (st3_3 t) fullShare (iblk3 V c 3 t)
    ∗ owns (c : Thread nD τ) (st3_4 t) fullShare (iblk3 V c 4 t)
    ∗ owns (c : Thread nD τ) (st3_5 t) fullShare ((dat3 V c).after 5 t))

-- At every point the body meets its five input blocks and leaves them, with the output block computed from them.
theorem sound_body3 (c : Dev nD) (t : Fin cfg3.N) :
    bodyPre3 V c t ⊢ wp frame (wpE (defs₀ (F := F)) Variants.none c none) Set.univ (bodyAt3 t) (fun _ => bodyPost3 V c t) := by
  have hinv : (dat3 V c).Φ t.succ = (dat3 V c).Φ t.castSucc := rfl
  have hdebt : (dat3 V c).owesAt () t.succ = (dat3 V c).owesAt () t.castSucc := rfl
  unfold bodyPre3 bodyPost3 bodyAt3
  rw [hinv, hdebt, after3_5]
  simp only [before3_0, before3_1, before3_2, before3_3, before3_4]
  iintro ⟨Hinv, Hdebt, ⟨%_, Ha⟩, ⟨%_, Hx⟩, ⟨%_, Hwl⟩, ⟨%_, Hwr⟩, ⟨%_, Hb⟩, Hy⟩
  iapply (sound_kernel3 c Set.univ _ _ _ _ _ _ _ _ _ _ _ _ _
    (iblk3 V c 0 t) (iblk3 V c 1 t) (iblk3 V c 2 t) (iblk3 V c 3 t) (iblk3 V c 4 t) _)
  isplitl [Ha]; · iexact Ha
  isplitl [Hx]; · iexact Hx
  isplitl [Hwl]; · iexact Hwl
  isplitl [Hwr]; · iexact Hwr
  isplitl [Hb]; · iexact Hb
  isplitl [Hy]
  · icases Hy with ⟨%y, Hy⟩; iexists _; iexact Hy
  iintro ⟨Ha, Hx, Hwl, Hwr, Hb, Hy⟩
  iframe

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Reg4.lean ====
import proofs.«427134_j31456340476253_1_alg».proof.Proof.Gen.KernelIdeal.Launch
import proofs.«427134_j31456340476253_1_alg».proof.Proof.Gen.KernelIdeal.Skeleton
import proofs.«427134_j31456340476253_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val = 0 :=
  (by decide +kernel : ∀ t : Fin grid4.N, cond4_0 (grid4.coords t) ↔ t.val = 0)

abbrev cond4_1 (i : grid4.Coords) : Prop := k4_cond2 i = 1#1

theorem hcond4_1 : ∀ t : Fin cfg4.N, cond4_1 (grid4.coords t) ↔ t.val = 9 :=
  (by decide +kernel : ∀ t : Fin grid4.N, cond4_1 (grid4.coords t) ↔ t.val = 9)

theorem liveAt4_0 : ∀ t : Fin cfg4.N, cfg4.idle 0 (grid4.coords t) = false := by decide +kernel
theorem liveAt4_1 : ∀ t : Fin cfg4.N, cfg4.idle 1 (grid4.coords t) = false := by decide +kernel

theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel

theorem liveAt4_2 : ∀ t : Fin cfg4.N, cond4_1 (grid4.coords t) → cfg4.idle 2 (grid4.coords t) = false := by decide +kernel

theorem off4_zero : (![0, 0] : Fin 2 → ℕ) = fun _ => 0 := funext fun a => by fin_cases a <;> rfl

abbrev rA4 : Rect S64x128 := Rect.unit (s := S64x128) ![0, 0] S64x128.size inb_S64x128_S64x128_0_0

theorem cover4 (p : Vec F S64x128 .f32) (L : List (View.Piece (Elt F) S64x128 .f32)) (y : S64x128.Idx) :
    ∃ pc ∈ ((⟨rA4, p⟩ : View.Piece (Elt F) S64x128 .f32) :: L), y ∈ pc.1.set :=
  ⟨_, List.mem_cons_self, View.mem_set_unit_zero (S := S64x128) off4_zero inb_S64x128_S64x128_0_0 y⟩

theorem ldL4 (X : Vec F S5000x64 .f32) :
    View.ld X (Rect.unit (s := S5000x64) ![0, 0] S5000x64.size inb_S5000x64_S5000x64_0_0) = X :=
  View.ld_unit_zero (S := S5000x64) off4_zero inb_S5000x64_S5000x64_0_0 X
theorem ldR4 (X : Vec F S5000x128 .f32) :
    View.ld X (Rect.unit (s := S5000x128) ![0, 0] S5000x128.size inb_S5000x128_S5000x128_0_0) = X :=
  View.ld_unit_zero (S := S5000x128) off4_zero inb_S5000x128_S5000x128_0_0 X
theorem ldA4 (X : Vec F S64x128 .f32) : View.ld X rA4 = X :=
  View.ld_unit_zero (S := S64x128) off4_zero inb_S64x128_S64x128_0_0 X

theorem readCovA4 (v : View sig .tc .vmem S64x128 .f32) (w : Vec F S64x128 .f32) :
    v.readCov [(⟨rA4, w⟩ : View.Piece (Elt F) S64x128 .f32)] rA4.toLoadRect = w :=
  View.readCov_unit_zero (S := S64x128) v off4_zero inb_S64x128_S64x128_0_0 w

theorem pay2_ld4 (A : Vec F S5000x64 .f32) (B : Vec F S5000x128 .f32) (C : Vec F S64x128 .f32) :
    k4_pay2 (View.ld A (Rect.unit (s := S5000x64) ![0, 0] S5000x64.size inb_S5000x64_S5000x64_0_0))
        (View.ld B (Rect.unit (s := S5000x128) ![0, 0] S5000x128.size inb_S5000x128_S5000x128_0_0)) (View.ld C rA4)
      = k4_pay2 A B C := by
  rw [ldL4, ldR4, ldA4]

set_option maxHeartbeats 1000000 in

theorem run4_A (c : Dev nD) (E : Set ℕ) (i : grid4.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : cond4_0 i) (hc1 : ¬cond4_1 i)
    (x0 : Vec F S5000x64 .f32) (x1 : Vec F S5000x128 .f32) (xo : Vec F S64x128 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover4 _ _), View.canon_cons_unit_zero (S := S64x128) off4_zero]
  simp only [View.readAt_eq_ld]
  exact congr (congr (congrArg k4_pay2 (ldL4 _)) (ldR4 _)) (readCovA4 _ _)

set_option maxHeartbeats 1000000 in

theorem run4_B (c : Dev nD) (E : Set ℕ) (i : grid4.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : ¬cond4_1 i)
    (x0 : Vec F S5000x64 .f32) (x1 : Vec F S5000x128 .f32) (xo acc : Vec F S64x128 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare acc
        ∗ (iprop(owns (c : Thread nD τ) arg1 fullShare x0 ∗ owns (c : Thread nD τ) arg2 fullShare x1 ∗ owns (c : Thread nD τ) arg3 fullShare xo
            ∗ owns (c : Thread nD τ) arg4 fullShare (k4_pay2 x0 x1 acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_run_names
  rw [View.read_writes_eq_canon _ _ _ (cover4 _ _), View.canon_cons_unit_zero (S := S64x128) off4_zero]
  simp only [View.readAt_eq_ld]
  exact pay2_ld4 _ _ _

set_option maxHeartbeats 1000000 in

theorem run4_C (c : Dev nD) (E : Set ℕ) (i : grid4.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (hc0 : ¬cond4_0 i) (hc1 : cond4_1 i)
    (x0 : Vec F S5000x64 .f32) (x1 : Vec F S5000x128 .f32) (acc : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare acc
        ∗ (iprop(owns (c : Thread nD τ) arg1 fullShare x0 ∗ owns (c : Thread nD τ) arg2 fullShare x1 ∗ owns (c : Thread nD τ) arg3 fullShare (k4_pay2 x0 x1 acc)
            ∗ owns (c : Thread nD τ) arg4 fullShare (k4_pay2 x0 x1 acc)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (cover4 _ _), View.canon_cons_unit_zero (S := S64x128) off4_zero]
    simp only [View.readAt_eq_ld]
    exact (readCovA4 _ _).trans (pay2_ld4 _ _ _)
  iexists _; isplitr
  swap; · iexact H3
  ipureintro
  sl_unfold_run_names
  rw [View.read_writes_eq_canon _ _ _ (cover4 _ _), View.canon_cons_unit_zero (S := S64x128) off4_zero]
  simp only [View.readAt_eq_ld]
  exact pay2_ld4 _ _ _

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S64x128 .f32 := Memref.whole cc4_scratch0

def accAt (c : Dev nD) : (n : ℕ) → n < cfg4.N → Vec F S64x128 .f32
  | 0, hn => k4_pay2 (iblk4 V c 0 ⟨0, hn⟩) (iblk4 V c 1 ⟨0, hn⟩) (k4_pay1 (F := F))
  | n + 1, hn => k4_pay2 (iblk4 V c 0 ⟨n + 1, hn⟩) (iblk4 V c 1 ⟨n + 1, hn⟩) (accAt c n (Nat.lt_of_succ_lt hn))

theorem accAt_zero (c : Dev nD) (hn : 0 < cfg4.N) :
    accAt V c 0 hn = k4_pay2 (iblk4 V c 0 ⟨0, hn⟩) (iblk4 V c 1 ⟨0, hn⟩) (k4_pay1 (F := F)) := rfl

theorem accAt_succ (c : Dev nD) (n : ℕ) (hn : n + 1 < cfg4.N) :
    accAt V c (n + 1) hn = k4_pay2 (iblk4 V c 0 ⟨n + 1, hn⟩) (iblk4 V c 1 ⟨n + 1, hn⟩) (accAt V c n (Nat.lt_of_succ_lt hn)) := rfl

def PhiP (c : Dev nD) : (n : ℕ) → n ≤ cfg4.N → sProp 𝕄
  | 0, _ => Pipeline.ΦA spec4 c
  | n + 1, hn => iprop(owns (c : Thread nD τ) scM4 fullShare (accAt V c n hn)
      ∗ Pipeline.scopedRestBut (Ix := Unit) (Name := ℕ) (U := UR sig nD τ) (Lvl := ℕ) (Val := Elt F) spec4 c [cc4_scratch0]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt V c t.val t.isLt
  Φ t := PhiP V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt V c t.val t.isLt := by dsimp only [dat4]

theorem accAt_first (c : Dev nD) (t : Fin cfg4.N) (h0 : t.val = 0) :
    accAt V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

theorem accAt_later (c : Dev nD) (t : Fin cfg4.N) (h0 : t.val ≠ 0) :
    accAt V c t.val t.isLt
      = k4_pay2 (iblk4 V c 0 t) (iblk4 V c 1 t) (accAt V c (t.val - 1) (Nat.lt_of_le_of_lt (Nat.sub_le _ _) t.isLt)) := by
  obtain ⟨n, hn⟩ := t
  cases n with
  | zero => exact absurd rfl h0
  | succ n => rfl

theorem PhiP_zero (c : Dev nD) (n : ℕ) (h : n ≤ cfg4.N) (hz : n = 0) : PhiP V c n h = Pipeline.ΦA spec4 c := by
  subst hz; rfl

theorem PhiP_succ (c : Dev nD) (n : ℕ) (hn : n < cfg4.N) :
    PhiP V c (n + 1) hn = iprop(owns (c : Thread nD τ) scM4 fullShare (accAt V c n hn)
      ∗ Pipeline.scopedRestBut (Ix := Unit) (Name := ℕ) (U := UR sig nD τ) (Lvl := ℕ) (Val := Elt F) spec4 c [cc4_scratch0]
      ∗ (∃ r, prngReg c r)) := rfl

theorem PhiP_pos (c : Dev nD) (n : ℕ) (h : n ≤ cfg4.N) (hz : n ≠ 0) :
    PhiP V c n h = iprop(owns (c : Thread nD τ) scM4 fullShare (accAt V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; rfl

theorem before4_0 (c : Dev nD) (t : Fin cfg4.N) (d) : (dat4 V c).before 0 t d = iblk4 V c 0 t :=
  ((dat4 V c).before_fetched 0 t (fetch4_0 t) d).trans (by unfold Dat.fetched Dat.blockOf iblk4; rw [A_eq4]; rfl)

theorem before4_1 (c : Dev nD) (t : Fin cfg4.N) (d) : (dat4 V c).before 1 t d = iblk4 V c 1 t :=
  ((dat4 V c).before_fetched 1 t (fetch4_1 t) d).trans (by unfold Dat.fetched Dat.blockOf iblk4; rw [A_eq4]; rfl)

abbrev mL4 (t : Fin cfg4.N) : Memref sig .tc .vmem S5000x64 .f32 := win4_0.stage (cfg4.slots t 0)
abbrev mR4 (t : Fin cfg4.N) : Memref sig .tc .vmem S5000x128 .f32 := win4_1.stage (cfg4.slots t 1)
abbrev mO4 (t : Fin cfg4.N) : Memref sig .tc .vmem S64x128 .f32 := win4_2.stage (cfg4.slots t 2)

def bodyPre4 (c : Dev nD) (t : Fin cfg4.N) : sProp 𝕄 :=
  iprop((dat4 V c).Φ t.castSucc ∗ (dat4 V c).owesAt () t.castSucc
    ∗ (∃ d, owns (c : Thread nD τ) (mL4 t) fullShare ((dat4 V c).before 0 t d))
    ∗ (∃ d, owns (c : Thread nD τ) (mR4 t) fullShare ((dat4 V c).before 1 t d))
    ∗ (∃ d, owns (c : Thread nD τ) (mO4 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).leavesExact 0 t = owns (c : Thread nD τ) (mL4 t) fullShare ((dat4 V c).after 0 t) from by
    unfold Dat.leavesExact; rw [liveAt4_0 t], after4_0]
  rw [show (dat4 V c).leavesExact 1 t = owns (c : Thread nD τ) (mR4 t) fullShare ((dat4 V c).after 1 t) from by
    unfold Dat.leavesExact; rw [liveAt4_1 t], after4_1]
  rw [show (dat4 V c).Φ t.castSucc = PhiP V c t.val (Nat.le_of_lt t.isLt) from rfl]
  rw [show (dat4 V c).Φ t.succ = PhiP V c (t.val + 1) t.isLt from rfl, PhiP_succ]
  by_cases h0 : t.val = 0
  ·
    have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1)]
    rw [PhiP_zero V c _ _ h0, PhiA4_eq, accAt_first V c t h0]
    iintro ⟨⟨⟨HS, HR⟩, Hg⟩, Ho, ⟨%d0, H0⟩, ⟨%d1, H1⟩, ⟨%d2, H2⟩⟩
    iapply (run4_A c Set.univ (grid4.coords t) _ _ _ _ _ _ _ _ hc0 hc1 (iblk4 V c 0 t) (iblk4 V c 1 t) _ _)
    isplitl [H0]; · iexact H0
    isplitl [H1]; · iexact H1
    isplitl [H2]; · iexact H2
    isplitl [HS]; · iexact HS
    iintro ⟨H0, H1, H2, HS⟩
    iframe
    iexists d2; iexact H2
  · have hc0 : ¬cond4_0 (grid4.coords t) := fun h => h0 ((hcond4_0 t).mp h)
    rw [PhiP_pos V c _ _ h0, accAt_later V c t h0]
    by_cases h9 : t.val = 9
    ·
      have hc1 : cond4_1 (grid4.coords t) := (hcond4_1 t).mpr h9
      rw [show (dat4 V c).leavesExact 2 t = owns (c : Thread nD τ) (mO4 t) fullShare ((dat4 V c).after 2 t) from by
        unfold Dat.leavesExact; rw [liveAt4_2 t hc1], after4_2, accAt_later V c t h0]
      iintro ⟨⟨HS, HR, Hg⟩, Ho, ⟨%d0, H0⟩, ⟨%d1, H1⟩, ⟨%d2, H2⟩⟩
      iapply (run4_C c Set.univ (grid4.coords t) _ _ _ _ _ _ _ _ hc0 hc1 (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      iframe
    ·
      have hc1 : ¬cond4_1 (grid4.coords t) := fun h => h9 ((hcond4_1 t).mp h)
      rw [Dat.leavesExact_idle (dat4 V c) 2 t (idleAt4_2 t hc1) (noFlush4_2 t hc1)]
      iintro ⟨⟨HS, HR, Hg⟩, Ho, ⟨%d0, H0⟩, ⟨%d1, H1⟩, ⟨%d2, H2⟩⟩
      iapply (run4_B c Set.univ (grid4.coords t) _ _ _ _ _ _ _ _ hc0 hc1 (iblk4 V c 0 t) (iblk4 V c 1 t) _ _ _)
      isplitl [H0]; · iexact H0
      isplitl [H1]; · iexact H1
      isplitl [H2]; · iexact H2
      isplitl [HS]; · iexact HS
      iintro ⟨H0, H1, H2, HS⟩
      iframe
      iexists d2; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiP V c 0 (Nat.zero_le _) from rfl, PhiP_zero V c 0 _ rfl]

theorem hout4 (c : Dev nD) : (dat4 V c).Φ (Fin.last cfg4.N) ⊢ Pipeline.ΦA spec4 c := by
  rw [show (dat4 V c).Φ (Fin.last cfg4.N) = PhiP V c (Fin.last cfg4.N).val (Nat.le_of_lt_succ (Fin.last cfg4.N).isLt) from rfl,
    PhiP_pos V c _ _ (by rw [Fin.val_last]; have : cfg4.N = 10 := N_4; omega), PhiA4_eq]
  iintro ⟨HS, HR, Hg⟩
  isplitl [HS HR]
  · isplitl [HS]; · iexists _; iexact HS
    iexact HR
  iexact Hg

end Region4

end Cert.KernelIdeal.Hand

end
-- ==== Proof.KI.Run.lean ====
import proofs.«427134_j31456340476253_1_alg».proof.Proof.Gen.KernelIdeal.Regions
import proofs.«427134_j31456340476253_1_alg».proof.Proof.KI.Reg0
import proofs.«427134_j31456340476253_1_alg».proof.Proof.KI.Reg1
import proofs.«427134_j31456340476253_1_alg».proof.Proof.KI.Reg2
import proofs.«427134_j31456340476253_1_alg».proof.Proof.KI.Reg3
import proofs.«427134_j31456340476253_1_alg».proof.Proof.KI.Reg4

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- An input window's array keeps its entry contents, and `withArrays` changes the windows' arrays only. -/
theorem keep {cfg : Cfg sig Λ₀} {c : Dev nD} (dat : Dat τ (Elt F) Unit ℕ (UR sig nD τ) ℕ cfg c) {V : Valuation τ sig (Elt F)}
    {o : Ref sig .tc} (hinj : Function.Injective (Pipeline.arrRef cfg.spec))
    (hin : ∀ w, Pipeline.arrRef cfg.spec w ≠ o → (cfg.win w).isOut = false)
    (hA : ∀ w, dat.A w = V (Proc.devRef .tc (Pipeline.arrRef cfg.spec w))) (r : Ref sig .tc) (hr : r ≠ o) :
    Pipeline.withArrays cfg.spec c V (dat.arrAt · cfg.N) (Proc.devRef .tc r) = V (Proc.devRef .tc r) := by
  by_cases h : ∃ w, Pipeline.arrRef cfg.spec w = r
  · obtain ⟨w, rfl⟩ := h
    exact (Pipeline.withArrays_arr _ hinj c _ _ w).trans ((dat.arrAt_in w (hin w hr) _).trans (hA w))
  · exact Pipeline.withArrays_of_ne _ c _ _ r fun w e => h ⟨w, e⟩

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev U1 : (c : Dev nD) → (b : Ref sig .tc) → Buf (Elt F) ((c : Thread nD τ).loc b) := fun c b => W1 m c b
theorem W1_of (c : Dev nD) (b : Ref sig .tc) (h : b ∉ hostOps0_W) :
    W1 m c (Proc.devRef .tc b) = W0 m c (Proc.devRef .tc b) :=
  StableHlo.after_of_writes_sub hostOps0 _ hostOps0_writes h
abbrev W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N :=
  Pipeline.withArrays_arr spec0 launch0.win.arr_inj c _ _ w
theorem W2_keep (c : Dev nD) (r : Ref sig .tc) (hr : r ≠ main_v24) :
    W2 m c (Proc.devRef .tc r) = W1 m c (Proc.devRef .tc r) :=
  keep (dat0 (U1 m) c) launch0.win.arr_inj (by decide) (A_eq0 (U1 m) c) r hr
abbrev W3 : Dev nD → Valuation τ sig (Elt F) := fun c => StableHlo.after hostOps1 (W2 m c)
abbrev U3 : (c : Dev nD) → (b : Ref sig .tc) → Buf (Elt F) ((c : Thread nD τ).loc b) := fun c b => W3 m c b
theorem W3_of (c : Dev nD) (b : Ref sig .tc) (h : b ∉ hostOps1_W) :
    W3 m c (Proc.devRef .tc b) = W2 m c (Proc.devRef .tc b) :=
  StableHlo.after_of_writes_sub hostOps1 _ hostOps1_writes h
abbrev W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N :=
  Pipeline.withArrays_arr spec1 launch1.win.arr_inj c _ _ w
theorem W4_keep (c : Dev nD) (r : Ref sig .tc) (hr : r ≠ main_v38) :
    W4 m c (Proc.devRef .tc r) = W3 m c (Proc.devRef .tc r) :=
  keep (dat1 (U3 m) c) launch1.win.arr_inj (by decide) (A_eq1 (U3 m) c) r hr
abbrev W5 : Dev nD → Valuation τ sig (Elt F) := fun c => StableHlo.after hostOps2 (W4 m c)
abbrev U5 : (c : Dev nD) → (b : Ref sig .tc) → Buf (Elt F) ((c : Thread nD τ).loc b) := fun c b => W5 m c b
theorem W5_of (c : Dev nD) (b : Ref sig .tc) (h : b ∉ hostOps2_W) :
    W5 m c (Proc.devRef .tc b) = W4 m c (Proc.devRef .tc b) :=
  StableHlo.after_of_writes_sub hostOps2 _ hostOps2_writes h
abbrev W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N :=
  Pipeline.withArrays_arr spec2 launch2.win.arr_inj c _ _ w
theorem W6_keep (c : Dev nD) (r : Ref sig .tc) (hr : r ≠ main_v52) :
    W6 m c (Proc.devRef .tc r) = W5 m c (Proc.devRef .tc r) :=
  keep (dat2 (U5 m) c) launch2.win.arr_inj (by decide) (A_eq2 (U5 m) c) r hr
abbrev W7 : Dev nD → Valuation τ sig (Elt F) := fun c => StableHlo.after hostOps3 (W6 m c)
abbrev U7 : (c : Dev nD) → (b : Ref sig .tc) → Buf (Elt F) ((c : Thread nD τ).loc b) := fun c b => W7 m c b
theorem W7_of (c : Dev nD) (b : Ref sig .tc) (h : b ∉ hostOps3_W) :
    W7 m c (Proc.devRef .tc b) = W6 m c (Proc.devRef .tc b) :=
  StableHlo.after_of_writes_sub hostOps3 _ hostOps3_writes h
abbrev W8 (c : Dev nD) : Valuation τ sig (Elt F) :=
  Pipeline.withArrays spec3 c (W7 m c) fun w => (dat3 (U7 m) c).arrAt w cfg3.N
theorem W8_arr (c : Dev nD) (w : Fin cfg3.W) :
    W8 m c (Proc.devRef .tc (Pipeline.arrRef spec3 w)) = (dat3 (U7 m) c).arrAt w cfg3.N :=
  Pipeline.withArrays_arr spec3 launch3.win.arr_inj c _ _ w
theorem W8_keep (c : Dev nD) (r : Ref sig .tc) (hr : r ≠ main_v66) :
    W8 m c (Proc.devRef .tc r) = W7 m c (Proc.devRef .tc r) :=
  keep (dat3 (U7 m) c) launch3.win.arr_inj (by decide) (A_eq3 (U7 m) c) r hr
abbrev W9 : Dev nD → Valuation τ sig (Elt F) := fun c => StableHlo.after hostOps4 (W8 m c)
abbrev U9 : (c : Dev nD) → (b : Ref sig .tc) → Buf (Elt F) ((c : Thread nD τ).loc b) := fun c b => W9 m c b
theorem W9_of (c : Dev nD) (b : Ref sig .tc) (h : b ∉ hostOps4_W) :
    W9 m c (Proc.devRef .tc b) = W8 m c (Proc.devRef .tc b) :=
  StableHlo.after_of_writes_sub hostOps4 _ hostOps4_writes h
abbrev W10 (c : Dev nD) : Valuation τ sig (Elt F) :=
  Pipeline.withArrays spec4 c (W9 m c) fun w => (dat4 (U9 m) c).arrAt w cfg4.N
theorem W10_arr (c : Dev nD) (w : Fin cfg4.W) :
    W10 m c (Proc.devRef .tc (Pipeline.arrRef spec4 w)) = (dat4 (U9 m) c).arrAt w cfg4.N :=
  Pipeline.withArrays_arr spec4 launch4.win.arr_inj c _ _ w
theorem W10_keep (c : Dev nD) (r : Ref sig .tc) (hr : r ≠ main_v77) :
    W10 m c (Proc.devRef .tc r) = W9 m c (Proc.devRef .tc r) :=
  keep (dat4 (U9 m) c) launch4.win.arr_inj (by decide) (A_eq4 (U9 m) c) r hr
abbrev W11 : Dev nD → Valuation τ sig (Elt F) := fun c => StableHlo.after hostOps5 (W10 m c)
theorem W11_of (c : Dev nD) (b : Ref sig .tc) (h : b ∉ hostOps5_W) :
    W11 m c (Proc.devRef .tc b) = W10 m c (Proc.devRef .tc b) :=
  StableHlo.after_of_writes_sub hostOps5 _ hostOps5_writes h

/-- Each host stretch leaves such a buffer alone, and so does each region, of which it is not the output. -/
theorem W11_launch (c : Dev nD) (r : Ref sig .tc)
    (hw : r ∉ hostOps0_W ++ hostOps1_W ++ hostOps2_W ++ hostOps3_W ++ hostOps4_W ++ hostOps5_W)
    (ho : r ∉ ([main_v24, main_v38, main_v52, main_v66, main_v77] : List (Ref sig .tc))) :
    W11 m c (Proc.devRef .tc r) = m ((c : Thread nD τ).loc r) := by
  simp only [List.mem_append, not_or] at hw
  simp only [List.mem_cons, List.not_mem_nil, or_false, not_or] at ho
  obtain ⟨⟨⟨⟨⟨w0, w1⟩, w2⟩, w3⟩, w4⟩, w5⟩ := hw
  obtain ⟨o0, o1, o2, o3, o4⟩ := ho
  exact (W11_of m c r w5).trans <| (W10_keep m c r o4).trans <| (W9_of m c r w4).trans <| (W8_keep m c r o3).trans <|
    (W7_of m c r w3).trans <| (W6_keep m c r o2).trans <| (W5_of m c r w2).trans <| (W4_keep m c r o1).trans <|
    (W3_of m c r w1).trans <| (W2_keep m c r o0).trans <| W1_of m c r w0

def pdats : (p : Fin 5) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c

theorem pdats_plain : ∀ p c, (∀ w, (pdats m p c).q w = fullShare) ∧ (∀ t, (pdats m p c).owed t = 0) ∧ (pdats m p c).recorded 0 = Set.univ
  | ⟨0, _⟩, _ | ⟨1, _⟩, _ | ⟨2, _⟩, _ | ⟨3, _⟩, _ | ⟨4, _⟩, _ => ⟨fun _ => rfl, fun _ => rfl, rfl⟩

abbrev noPairs : GSem nD τ sig → Finset Unit := fun _ => ∅
abbrev level0 : GSem nD τ sig → Unit → ℕ := fun _ _ => 0
abbrev rider (c : Dev nD) : sProp 𝕄 :=
  iprop((∃ r, prngReg c r) ∗ ∃ T, owes (c : Thread nD τ) (0 : CellTallies nD τ sig Unit) T)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- Region `p` as a segment of the run, from the contents `V` to `V` with the region's arrays at their last contents. -/
def reg (p : Fin 5) (lf : Pipeline.LaunchFacts (nD := nD) (τ := τ) cfgs p) (V : Dev nD → Valuation τ sig (Elt F))
    (hb : ∀ c, BodyObligation (pdats m p c) (defs₀ (F := F)) Variants.none () Set.univ)
    (hA : ∀ c w, (pdats m p c).A w = V c (Proc.devRef .tc (Pipeline.arrRef (cfgs p).spec w)))
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ Variants.none noPairs level0 p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ noPairs level0 p fun c => (pdats_plain m p c).2.1
  pre c := iprop(StableHlo.held (c : Thread nD τ) (Pipeline.ucRefs τ sig) (V c) ∗ rider c)
  post c := iprop(StableHlo.held (c : Thread nD τ) (Pipeline.ucRefs τ sig)
    (Pipeline.withArrays (cfgs p).spec c (V c) fun w => (pdats m p c).arrAt w (cfgs p).N) ∗ rider c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨hq, h0, hr⟩ := pdats_plain m p c
    have hsplit := Pipeline.arrays_of_unscopedBufs (p := p) (pcfgs (F := F)) adm (pdats m) lf.win lf.arr_whole c
      ((pdats m p c).share_full hq) (fun b => V c b) (hA c)
    rw [Pipeline.unscopedBufs_held] at hsplit
    rw [Pipeline.ownSems0_none]
    unfold Pipeline.Dat.owesAt Pipeline.owesWithin Pipeline.Dat.bound
    rw [h0, hr]
    iintro ⟨⟨Hbufs, Hg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · icases Howes with ⟨%T, Howes⟩; iexists T; isplitr; · ipureintro; exact fun _ _ => Or.inl trivial
      iexact Howes
    isplitl [Hg]; · iexact Hg
    iexact Hrest
  hin c := by
    have key := hin c
    unfold Pipeline.ΦA at key
    iintro ⟨Hg, -, Hs⟩
    iapply key
    isplitl [Hs]; · iexact Hs
    iexact Hg
  hout c := by
    rw [Pipeline.ownSems0_none]
    have key := hout c
    unfold Pipeline.ΦA at key
    iintro H
    ihave H' := key $$ H
    icases H' with ⟨Hs, Hg⟩
    isplitl [Hg]; · iexact Hg
    isplitr; · iempintro
    iexact Hs
  hexit c := by
    obtain ⟨hq, h0, -⟩ := pdats_plain m p c
    have hjoin := Pipeline.unscopedBufs_of_arrays (p := p) (pcfgs (F := F)) adm (Ix := Unit) (Name := ℕ) (U := UR sig nD τ) (Lvl := ℕ)
      lf.win lf.arr_whole c (pdats m) ((pdats m p c).share_full hq) (fun b => V c b)
      (fun b => Pipeline.withArrays (cfgs p).spec c (V c) (fun w => (pdats m p c).arrAt w (cfgs p).N) b)
      ((pdats m p c).arrAt · (cfgs p).N) (fun w => Eq.symm (Pipeline.withArrays_arr _ lf.win.arr_inj c _ _ w))
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [h0]
    iintro ⟨Harr, Howes, Hg, Hrest⟩
    imodintro
    isplitl [Harr Hrest]
    · iapply hjoin; isplitl [Harr] <;> iassumption
    isplitl [Hg]; · iexact Hg
    icases Howes with ⟨%T, -, Howes⟩; iexists T; iexact Howes

abbrev runSegs : List (Pipeline.Seg (pcfgs (F := F)) adm (pdats m) () defs₀ Variants.none noPairs level0) :=
  [
    .host (hostSeg hostOps0 hostOps0_sub hostOps0_fresh (W0 m)),
    .region (reg m 0 launch0 (W1 m) (body_obligation0 (U1 m)) (A_eq0 (U1 m)) (fun _ => .rfl) fun _ => .rfl),
    .host (hostSeg hostOps1 hostOps1_sub hostOps1_fresh (W2 m)),
    .region (reg m 1 launch1 (W3 m) (body_obligation1 (U3 m)) (A_eq1 (U3 m)) (fun _ => .rfl) fun _ => .rfl),
    .host (hostSeg hostOps2 hostOps2_sub hostOps2_fresh (W4 m)),
    .region (reg m 2 launch2 (W5 m) (body_obligation2 (U5 m)) (A_eq2 (U5 m)) (fun _ => .rfl) fun _ => .rfl),
    .host (hostSeg hostOps3 hostOps3_sub hostOps3_fresh (W6 m)),
    .region (reg m 3 launch3 (W7 m) (body_obligation3 (U7 m)) (A_eq3 (U7 m)) (fun _ => .rfl) fun _ => .rfl),
    .host (hostSeg hostOps4 hostOps4_sub hostOps4_fresh (W8 m)),
    .region (reg m 4 launch4 (W9 m) (body_obligation4 (U9 m)) (A_eq4 (U9 m)) (hin4 (U9 m)) (hout4 (U9 m))),
    .host (hostSeg hostOps5 hostOps5_sub hostOps5_fresh (W10 m)) ]

theorem main_run (c : Dev nD) : main (F := F) c = Pipeline.Seg.run (runSegs m) := by
  rewrite [main_chain c, Pipeline.Seg.run_eq_chain]
  rfl

set_option backward.isDefEq.respectTransparency.types false in
theorem run : θ_run defs (onTc (τ := τ) (main (F := F))) ⟨m, fun _ => 0, ρ⟩ (fun r => ∀ c : Dev nD,
      r.2.mem ((c.tc : Thread nD τ).loc main_v90) = W11 m c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m) () cellOf_inj emb₁ defs₀ Variants.none noPairs level0 m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rider c)) (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach noPairs level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, Howes, -, Hg, -⟩, -⟩
      imodintro
      isplitl [Hh]; · iexact Hh
      isplitl [Hg]; · iexists _; iexact Hg
      iexists ∅; iexact Howes)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => by
      refine ⟨h c _ (mem_ucRefs _ (by decide)), ?_⟩
      and_intros <;> exact (h c _ (mem_ucRefs _ (by decide))).trans (W11_launch m c _ (by decide) (by decide)))

end Cert.KernelIdeal.Hand

end
-- ==== Proof.RefRun.lean ====
import proofs.«427134_j31456340476253_1_alg».proof.Proof.Gen.ReferenceIdeal.Run
-- ==== Proof.KI.HostFns.lean ====
import proofs.«427134_j31456340476253_1_alg».proof.Proof.Gen.KernelIdeal
import Idealize.ShloMosaic.PureOps.Ideal

noncomputable section

namespace Cert.KernelIdeal.Hand

open Idealize.ShloMosaic Cert.KernelIdeal Cert.KernelIdeal.Gen

variable {F : FTy → Type} [FloatOps F]

abbrev Arr (S : Shape) (e : EltTy) : Type := (⟨S, e⟩ : BufTy).Contents (Elt F)

def srcRow (e : Arr (F := F) S2x600000 .i32) : Arr (F := F) S600000 .i32 :=
  shapeCast _ (extractStridedSlice S1x600000 ![0, 0] e slices_S2x600000_S1x600000_0_0) shapeCasts_S1x600000_S600000

def dstRow (e : Arr (F := F) S2x600000 .i32) : Arr (F := F) S600000 .i32 :=
  shapeCast _ (extractStridedSlice S1x600000 ![1, 0] e slices_S2x600000_S1x600000_1_0) shapeCasts_S1x600000_S600000

def srcWrappedOf (s : Arr (F := F) S600000 .i32) : Arr (F := F) S600000 .i32 :=
  select (cmpi .slt s (broadcastInDim S600000 ![] bcast_S_S600000 (constantI S_ 32 0#32)))
    (addi s (broadcastInDim S600000 ![] bcast_S_S600000 (constantI S_ 32 50000#32))) s

def cntCol (e : Arr (F := F) S2x600000 .i32) : Arr (F := F) S50000x1 .f32 :=
  broadcastInDim S50000x1 ![0] bcast_S50000_S50000x1_0
    (maximumf
      (Host.scatterAdd scatter_S50000_S600000x1_S600000_n_0_0_1 (broadcastInDim S50000 ![] bcast_S_S50000 (constant S_ .f32 0x00000000#32))
        (broadcastInDim S600000x1 ![0] bcast_S600000_S600000x1_0 (dstRow e))
        (broadcastInDim S600000 ![] bcast_S_S600000 (constant S_ .f32 0x3F800000#32)))
      (broadcastInDim S50000 ![] bcast_S_S50000 (constant S_ .f32 0x3F800000#32)))

def aggFrom (h : Arr (F := F) S50000x128 .f32) (s d : Arr (F := F) S600000 .i32) (cnt : Arr (F := F) S50000x1 .f32) : Arr (F := F) S50000x128 .f32 :=
  Host.divf
    (Host.scatterAdd scatter_S50000x128_S600000x1_S600000x128_1_0_0_1 (broadcastInDim S50000x128 ![] bcast_S_S50000x128 (constant S_ .f32 0x00000000#32))
      (broadcastInDim S600000x1 ![0] bcast_S600000_S600000x1_0 d)
      (Host.gather gather_S50000x128_S600000x1_S600000x128_1_0_n_n_0_1_1128 h (broadcastInDim S600000x1 ![0] bcast_S600000_S600000x1_0 (srcWrappedOf s))))
    (broadcastInDim S50000x128 ![0, 1] bcast_S50000x1_S50000x128_0_1 cnt)

def agg (h : Arr (F := F) S50000x128 .f32) (e : Arr (F := F) S2x600000 .i32) : Arr (F := F) S50000x128 .f32 :=
  aggFrom h (srcRow e) (dstRow e) (cntCol e)

def biasRow (b : Arr (F := F) S128 .f32) : Arr (F := F) S1x128 .f32 := shapeCast _ b shapeCasts_S128_S1x128

def oneHot (batch : Arr (F := F) S50000 .i32) : Arr (F := F) S50000x64 .f32 :=
  uitofp .f32 (cmpi .eq
    (broadcastInDim S50000x64 ![0, 1] bcast_S50000x1_S50000x64_0_1 (broadcastInDim S50000x1 ![0] bcast_S50000_S50000x1_0 batch))
    (broadcastInDim S50000x64 ![0, 1] bcast_S1x64_S50000x64_0_1 (broadcastInDim S1x64 ![1] bcast_S64_S1x64_1 (iotaInDim S64 32 0))))

def groupCount (batch : Arr (F := F) S50000 .i32) : Arr (F := F) S64 .f32 :=
  maximumf (Host.reduceAdd (oneHot batch) (constant S_ .f32 0x00000000#32) reducesTo_S50000x64_S64_d0 h_S_)
    (broadcastInDim S64 ![] bcast_S_S64 (constant S_ .f32 0x3F800000#32))

def classify (pooled : Arr (F := F) S64x128 .f32) (gc : Arr (F := F) S64 .f32) (wc : Arr (F := F) S128x1 .f32) (bc : Arr (F := F) S1 .f32) :
    Arr (F := F) S64x1 .f32 :=
  Host.divf (broadcastInDim S64x1 ![] bcast_S_S64x1 (constant S_ .f32 0x3F800000#32))
    (addf (broadcastInDim S64x1 ![] bcast_S_S64x1 (constant S_ .f32 0x3F800000#32))
      (Host.exp (Host.negf (addf
        (Host.dotGeneral dot_S64x128_S128x1_S64x1_1_0_0_1_n_n none
          (Host.divf pooled (broadcastInDim S64x128 ![0, 1] bcast_S64x1_S64x128_0_1 (broadcastInDim S64x1 ![0] bcast_S64_S64x1_0 gc))) wc)
        (broadcastInDim S64x1 ![0, 1] bcast_S1x1_S64x1_0_1 (broadcastInDim S1x1 ![1] bcast_S1_S1x1_1 bc))))))

end Cert.KernelIdeal.Hand

end
-- ==== Proof.KI.Chain.lean ====
import proofs.«427134_j31456340476253_1_alg».proof.Proof.KI.Run
import proofs.«427134_j31456340476253_1_alg».proof.Proof.KI.HostFns
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (c : Dev nD)

theorem launch (r : Ref sig .tc) (hw : r ∉ hostOps0_W ++ hostOps1_W ++ hostOps2_W ++ hostOps3_W ++ hostOps4_W)
    (ho : r ∉ ([main_v24, main_v38, main_v52, main_v66, main_v77] : List (Ref sig .tc))) :
    W1 m c (Proc.devRef .tc r) = m ((c.tc : Thread nD τ).loc r)
    ∧ W2 m c (Proc.devRef .tc r) = m ((c.tc : Thread nD τ).loc r)
    ∧ W3 m c (Proc.devRef .tc r) = m ((c.tc : Thread nD τ).loc r)
    ∧ W4 m c (Proc.devRef .tc r) = m ((c.tc : Thread nD τ).loc r)
    ∧ W5 m c (Proc.devRef .tc r) = m ((c.tc : Thread nD τ).loc r)
    ∧ W6 m c (Proc.devRef .tc r) = m ((c.tc : Thread nD τ).loc r)
    ∧ W7 m c (Proc.devRef .tc r) = m ((c.tc : Thread nD τ).loc r)
    ∧ W8 m c (Proc.devRef .tc r) = m ((c.tc : Thread nD τ).loc r)
    ∧ W9 m c (Proc.devRef .tc r) = m ((c.tc : Thread nD τ).loc r)
    ∧ W10 m c (Proc.devRef .tc r) = m ((c.tc : Thread nD τ).loc r) := by
  simp only [List.mem_append, not_or] at hw
  simp only [List.mem_cons, List.not_mem_nil, or_false, not_or] at ho
  obtain ⟨⟨⟨⟨h0, h1⟩, h2⟩, h3⟩, h4⟩ := hw
  obtain ⟨o0, o1, o2, o3, o4⟩ := ho
  have e1 := (W1_of m c r h0).trans rfl
  have e2 := (W2_keep m c r o0).trans e1
  have e3 := (W3_of m c r h1).trans e2
  have e4 := (W4_keep m c r o1).trans e3
  have e5 := (W5_of m c r h2).trans e4
  have e6 := (W6_keep m c r o2).trans e5
  have e7 := (W7_of m c r h3).trans e6
  have e8 := (W8_keep m c r o3).trans e7
  have e9 := (W9_of m c r h4).trans e8
  exact ⟨e1, e2, e3, e4, e5, e6, e7, e8, e9, (W10_keep m c r o4).trans e9⟩

theorem W1_arg0 : W1 m c (Proc.devRef .tc main_arg0) = m ((c.tc : Thread nD τ).loc main_arg0) :=
  (launch m c main_arg0 (by decide) (by decide)).1
theorem W1_arg4 : W1 m c (Proc.devRef .tc main_arg4) = m ((c.tc : Thread nD τ).loc main_arg4) :=
  (launch m c main_arg4 (by decide) (by decide)).1
theorem W1_arg5 : W1 m c (Proc.devRef .tc main_arg5) = m ((c.tc : Thread nD τ).loc main_arg5) :=
  (launch m c main_arg5 (by decide) (by decide)).1
theorem W2_arg9 : W2 m c (Proc.devRef .tc main_arg9) = m ((c.tc : Thread nD τ).loc main_arg9) :=
  (launch m c main_arg9 (by decide) (by decide)).2.1
theorem W3_arg7 : W3 m c (Proc.devRef .tc main_arg7) = m ((c.tc : Thread nD τ).loc main_arg7) :=
  (launch m c main_arg7 (by decide) (by decide)).2.2.1
theorem W3_arg8 : W3 m c (Proc.devRef .tc main_arg8) = m ((c.tc : Thread nD τ).loc main_arg8) :=
  (launch m c main_arg8 (by decide) (by decide)).2.2.1
theorem W4_arg12 : W4 m c (Proc.devRef .tc main_arg12) = m ((c.tc : Thread nD τ).loc main_arg12) :=
  (launch m c main_arg12 (by decide) (by decide)).2.2.2.1
theorem W5_arg10 : W5 m c (Proc.devRef .tc main_arg10) = m ((c.tc : Thread nD τ).loc main_arg10) :=
  (launch m c main_arg10 (by decide) (by decide)).2.2.2.2.1
theorem W5_arg11 : W5 m c (Proc.devRef .tc main_arg11) = m ((c.tc : Thread nD τ).loc main_arg11) :=
  (launch m c main_arg11 (by decide) (by decide)).2.2.2.2.1
theorem W6_arg15 : W6 m c (Proc.devRef .tc main_arg15) = m ((c.tc : Thread nD τ).loc main_arg15) :=
  (launch m c main_arg15 (by decide) (by decide)).2.2.2.2.2.1
theorem W7_arg13 : W7 m c (Proc.devRef .tc main_arg13) = m ((c.tc : Thread nD τ).loc main_arg13) :=
  (launch m c main_arg13 (by decide) (by decide)).2.2.2.2.2.2.1
theorem W7_arg14 : W7 m c (Proc.devRef .tc main_arg14) = m ((c.tc : Thread nD τ).loc main_arg14) :=
  (launch m c main_arg14 (by decide) (by decide)).2.2.2.2.2.2.1
theorem W8_arg3 : W8 m c (Proc.devRef .tc main_arg3) = m ((c.tc : Thread nD τ).loc main_arg3) :=
  (launch m c main_arg3 (by decide) (by decide)).2.2.2.2.2.2.2.1
theorem W10_arg16 : W10 m c (Proc.devRef .tc main_arg16) = m ((c.tc : Thread nD τ).loc main_arg16) :=
  (launch m c main_arg16 (by decide) (by decide)).2.2.2.2.2.2.2.2.2
theorem W10_arg17 : W10 m c (Proc.devRef .tc main_arg17) = m ((c.tc : Thread nD τ).loc main_arg17) :=
  (launch m c main_arg17 (by decide) (by decide)).2.2.2.2.2.2.2.2.2

set_option maxHeartbeats 4000000 in
theorem W1_v1_raw : W1 m c (Proc.devRef .tc main_v1) = srcRow (m ((c.tc : Thread nD τ).loc main_arg1)) := by
  show StableHlo.after hostOps0 _ (Proc.devRef .tc main_v1) = _
  after_results_simp
  all_goals (first | rfl | (unfold srcRow; rfl))

set_option maxHeartbeats 4000000 in
theorem W1_v3_raw : W1 m c (Proc.devRef .tc main_v3) = dstRow (m ((c.tc : Thread nD τ).loc main_arg1)) := by
  show StableHlo.after hostOps0 _ (Proc.devRef .tc main_v3) = _
  after_results_simp
  all_goals (first | rfl | (unfold dstRow; rfl))

set_option maxHeartbeats 4000000 in
theorem W1_v10_raw : W1 m c (Proc.devRef .tc main_v10) = cntCol (m ((c.tc : Thread nD τ).loc main_arg1)) := by
  show StableHlo.after hostOps0 _ (Proc.devRef .tc main_v10) = _
  after_results_simp
  all_goals (first | rfl | (unfold cntCol dstRow; rfl))

set_option maxHeartbeats 4000000 in
theorem W1_v22_raw : W1 m c (Proc.devRef .tc main_v22) = agg (m ((c.tc : Thread nD τ).loc main_arg0)) (m ((c.tc : Thread nD τ).loc main_arg1)) := by
  show StableHlo.after hostOps0 _ (Proc.devRef .tc main_v22) = _
  after_results_simp
  all_goals (first | rfl | (unfold agg aggFrom srcWrappedOf cntCol dstRow srcRow; rfl))

set_option maxHeartbeats 4000000 in
theorem W1_v23_raw : W1 m c (Proc.devRef .tc main_v23) = biasRow (m ((c.tc : Thread nD τ).loc main_arg6)) := by
  show StableHlo.after hostOps0 _ (Proc.devRef .tc main_v23) = _
  after_results_simp
  all_goals (first | rfl | (unfold biasRow; rfl))

theorem W2_v1 : W2 m c (Proc.devRef .tc main_v1) = srcRow (m ((c.tc : Thread nD τ).loc main_arg1)) :=
  ((W2_keep m c main_v1 (by decide))).trans (W1_v1_raw m c)
theorem W4_v1 : W4 m c (Proc.devRef .tc main_v1) = srcRow (m ((c.tc : Thread nD τ).loc main_arg1)) :=
  ((W4_keep m c main_v1 (by decide)).trans ((W3_of m c main_v1 (by decide)))).trans (W2_v1 m c)
theorem W6_v1 : W6 m c (Proc.devRef .tc main_v1) = srcRow (m ((c.tc : Thread nD τ).loc main_arg1)) :=
  ((W6_keep m c main_v1 (by decide)).trans ((W5_of m c main_v1 (by decide)))).trans (W4_v1 m c)

theorem W2_v3 : W2 m c (Proc.devRef .tc main_v3) = dstRow (m ((c.tc : Thread nD τ).loc main_arg1)) :=
  ((W2_keep m c main_v3 (by decide))).trans (W1_v3_raw m c)
theorem W4_v3 : W4 m c (Proc.devRef .tc main_v3) = dstRow (m ((c.tc : Thread nD τ).loc main_arg1)) :=
  ((W4_keep m c main_v3 (by decide)).trans ((W3_of m c main_v3 (by decide)))).trans (W2_v3 m c)
theorem W6_v3 : W6 m c (Proc.devRef .tc main_v3) = dstRow (m ((c.tc : Thread nD τ).loc main_arg1)) :=
  ((W6_keep m c main_v3 (by decide)).trans ((W5_of m c main_v3 (by decide)))).trans (W4_v3 m c)

theorem W2_v10 : W2 m c (Proc.devRef .tc main_v10) = cntCol (m ((c.tc : Thread nD τ).loc main_arg1)) :=
  ((W2_keep m c main_v10 (by decide))).trans (W1_v10_raw m c)
theorem W4_v10 : W4 m c (Proc.devRef .tc main_v10) = cntCol (m ((c.tc : Thread nD τ).loc main_arg1)) :=
  ((W4_keep m c main_v10 (by decide)).trans ((W3_of m c main_v10 (by decide)))).trans (W2_v10 m c)
theorem W6_v10 : W6 m c (Proc.devRef .tc main_v10) = cntCol (m ((c.tc : Thread nD τ).loc main_arg1)) :=
  ((W6_keep m c main_v10 (by decide)).trans ((W5_of m c main_v10 (by decide)))).trans (W4_v10 m c)

set_option maxHeartbeats 4000000 in
theorem W3_v36_raw : W3 m c (Proc.devRef .tc main_v36) = aggFrom (W2 m c (Proc.devRef .tc main_v24)) (W2 m c (Proc.devRef .tc main_v1)) (W2 m c (Proc.devRef .tc main_v3)) (W2 m c (Proc.devRef .tc main_v10)) := by
  show StableHlo.after hostOps1 _ (Proc.devRef .tc main_v36) = _
  after_results_simp
  all_goals (first | rfl | (unfold aggFrom srcWrappedOf; rfl))
theorem W3_v36 : W3 m c (Proc.devRef .tc main_v36) = agg (W2 m c (Proc.devRef .tc main_v24)) (m ((c.tc : Thread nD τ).loc main_arg1)) := by
  rw [W3_v36_raw, W2_v1, W2_v3, W2_v10]; rfl
set_option maxHeartbeats 4000000 in
theorem W3_v37_raw : W3 m c (Proc.devRef .tc main_v37) = biasRow (W2 m c (Proc.devRef .tc main_arg9)) := by
  show StableHlo.after hostOps1 _ (Proc.devRef .tc main_v37) = _
  after_results_simp
  all_goals (first | rfl | (unfold biasRow; rfl))
theorem W3_v37 : W3 m c (Proc.devRef .tc main_v37) = biasRow (m ((c.tc : Thread nD τ).loc main_arg9)) := by
  rw [W3_v37_raw, W2_arg9]
theorem W3_v24 : W3 m c (Proc.devRef .tc main_v24) = W2 m c (Proc.devRef .tc main_v24) :=
  (W3_of m c main_v24 (by decide))

set_option maxHeartbeats 4000000 in
theorem W5_v50_raw : W5 m c (Proc.devRef .tc main_v50) = aggFrom (W4 m c (Proc.devRef .tc main_v38)) (W4 m c (Proc.devRef .tc main_v1)) (W4 m c (Proc.devRef .tc main_v3)) (W4 m c (Proc.devRef .tc main_v10)) := by
  show StableHlo.after hostOps2 _ (Proc.devRef .tc main_v50) = _
  after_results_simp
  all_goals (first | rfl | (unfold aggFrom srcWrappedOf; rfl))
theorem W5_v50 : W5 m c (Proc.devRef .tc main_v50) = agg (W4 m c (Proc.devRef .tc main_v38)) (m ((c.tc : Thread nD τ).loc main_arg1)) := by
  rw [W5_v50_raw, W4_v1, W4_v3, W4_v10]; rfl
set_option maxHeartbeats 4000000 in
theorem W5_v51_raw : W5 m c (Proc.devRef .tc main_v51) = biasRow (W4 m c (Proc.devRef .tc main_arg12)) := by
  show StableHlo.after hostOps2 _ (Proc.devRef .tc main_v51) = _
  after_results_simp
  all_goals (first | rfl | (unfold biasRow; rfl))
theorem W5_v51 : W5 m c (Proc.devRef .tc main_v51) = biasRow (m ((c.tc : Thread nD τ).loc main_arg12)) := by
  rw [W5_v51_raw, W4_arg12]
theorem W5_v38 : W5 m c (Proc.devRef .tc main_v38) = W4 m c (Proc.devRef .tc main_v38) :=
  (W5_of m c main_v38 (by decide))

set_option maxHeartbeats 4000000 in
theorem W7_v64_raw : W7 m c (Proc.devRef .tc main_v64) = aggFrom (W6 m c (Proc.devRef .tc main_v52)) (W6 m c (Proc.devRef .tc main_v1)) (W6 m c (Proc.devRef .tc main_v3)) (W6 m c (Proc.devRef .tc main_v10)) := by
  show StableHlo.after hostOps3 _ (Proc.devRef .tc main_v64) = _
  after_results_simp
  all_goals (first | rfl | (unfold aggFrom srcWrappedOf; rfl))
theorem W7_v64 : W7 m c (Proc.devRef .tc main_v64) = agg (W6 m c (Proc.devRef .tc main_v52)) (m ((c.tc : Thread nD τ).loc main_arg1)) := by
  rw [W7_v64_raw, W6_v1, W6_v3, W6_v10]; rfl
set_option maxHeartbeats 4000000 in
theorem W7_v65_raw : W7 m c (Proc.devRef .tc main_v65) = biasRow (W6 m c (Proc.devRef .tc main_arg15)) := by
  show StableHlo.after hostOps3 _ (Proc.devRef .tc main_v65) = _
  after_results_simp
  all_goals (first | rfl | (unfold biasRow; rfl))
theorem W7_v65 : W7 m c (Proc.devRef .tc main_v65) = biasRow (m ((c.tc : Thread nD τ).loc main_arg15)) := by
  rw [W7_v65_raw, W6_arg15]
theorem W7_v52 : W7 m c (Proc.devRef .tc main_v52) = W6 m c (Proc.devRef .tc main_v52) :=
  (W7_of m c main_v52 (by decide))

set_option maxHeartbeats 4000000 in
theorem W9_v73_raw : W9 m c (Proc.devRef .tc main_v73) = oneHot (W8 m c (Proc.devRef .tc main_arg3)) := by
  show StableHlo.after hostOps4 _ (Proc.devRef .tc main_v73) = _
  after_results_simp
  all_goals (first | rfl | (unfold oneHot; rfl))
theorem W9_v73 : W9 m c (Proc.devRef .tc main_v73) = oneHot (m ((c.tc : Thread nD τ).loc main_arg3)) := by
  rw [W9_v73_raw, W8_arg3]
set_option maxHeartbeats 4000000 in
theorem W9_v76_raw : W9 m c (Proc.devRef .tc main_v76) = groupCount (W8 m c (Proc.devRef .tc main_arg3)) := by
  show StableHlo.after hostOps4 _ (Proc.devRef .tc main_v76) = _
  after_results_simp
  all_goals (first | rfl | (unfold groupCount oneHot; rfl))
theorem W9_v76 : W9 m c (Proc.devRef .tc main_v76) = groupCount (m ((c.tc : Thread nD τ).loc main_arg3)) := by
  rw [W9_v76_raw, W8_arg3]
theorem W9_v66 : W9 m c (Proc.devRef .tc main_v66) = W8 m c (Proc.devRef .tc main_v66) :=
  (W9_of m c main_v66 (by decide))
theorem W10_v76 : W10 m c (Proc.devRef .tc main_v76) = groupCount (m ((c.tc : Thread nD τ).loc main_arg3)) :=
  ((W10_keep m c main_v76 (by decide))).trans (W9_v76 m c)

set_option maxHeartbeats 4000000 in
theorem W11_v90_raw : W11 m c (Proc.devRef .tc main_v90) = classify (W10 m c (Proc.devRef .tc main_v77)) (W10 m c (Proc.devRef .tc main_v76)) (W10 m c (Proc.devRef .tc main_arg16)) (W10 m c (Proc.devRef .tc main_arg17)) := by
  show StableHlo.after hostOps5 _ (Proc.devRef .tc main_v90) = _
  after_results_simp
  all_goals (first | rfl | (unfold classify; rfl))

theorem W11_v90 : W11 m c (Proc.devRef .tc main_v90)
    = classify (W10 m c (Proc.devRef .tc main_v77)) (groupCount (m ((c.tc : Thread nD τ).loc main_arg3))) (m ((c.tc : Thread nD τ).loc main_arg16)) (m ((c.tc : Thread nD τ).loc main_arg17)) := by
  rw [W11_v90_raw, W10_v76, W10_arg16, W10_arg17]

end Cert.KernelIdeal.Hand

end
-- ==== Proof.Spec.lean ====
import Mathlib.Data.EReal.Inv
import Mathlib.Algebra.BigOperators.Group.Finset.Basic

namespace Cert.Spec

noncomputable def combine (A X : Fin 50000 → Fin 128 → EReal) (Wl Wr : Fin 128 → Fin 128 → EReal) (b : Fin 128 → EReal) :
    Fin 50000 → Fin 128 → EReal :=
  fun i j => max (((∑ k, A i k * Wl k j) + (∑ k, X i k * Wr k j)) + b j) 0

noncomputable def combineRef (A X : Fin 50000 → Fin 128 → EReal) (Wl Wr : Fin 128 → Fin 128 → EReal) (b : Fin 128 → EReal) :
    Fin 50000 → Fin 128 → EReal :=
  fun i j => max (((∑ k, A i k * Wl k j) + b j) + (∑ k, X i k * Wr k j)) 0

theorem combine_eq_combineRef (A X : Fin 50000 → Fin 128 → EReal) (Wl Wr : Fin 128 → Fin 128 → EReal) (b : Fin 128 → EReal) :
    combine A X Wl Wr b = combineRef A X Wl Wr b := by
  funext i j
  simp only [combine, combineRef, add_right_comm]

noncomputable def poolSum (G : Fin 50000 → Fin 64 → EReal) (H : Fin 50000 → Fin 128 → EReal) : Fin 64 → Fin 128 → EReal :=
  fun g d => ∑ n, G n g * H n d

end Cert.Spec
-- ==== Proof.KI.LayerPay.lean ====
import proofs.«427134_j31456340476253_1_alg».proof.Proof.Gen.KernelIdeal.Skeleton
import proofs.«427134_j31456340476253_1_alg».proof.Proof.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Hand

open Idealize.ShloMosaic Idealize.ShloMosaic.TcCoe Idealize.ShloMosaic.ValueIdx
open Idealize.SL.Sem
open Cert.KernelIdeal Cert.KernelIdeal.Gen

-- the product into a zero accumulator is the plain product of a 5000×128 by a 128×128 matrix
theorem lay_matmul (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) :=
  ((Ideal.matmul_constant_zero_apply _ none a w (ix2 p q)).trans
    (Ideal.dotGeneral_apply (DotDims.plain 5000 128 128) none _ a w (ix2 p q)).symm).trans
    (StackMember.dotGeneral_plain_apply none a w p q)

-- the four regions' payloads are one function: a cast to the same shape is the identity
theorem k0_eq : @k0_pay1 Ideal _ = k1_pay1 := by
  funext v0 v3 v5 v7 v12
  unfold k0_pay1 k1_pay1
  simp only [shapeCast_self]

-- the layer over five whole arrays, as contents of the output array
def layerOf (A X : S50000x128.Idx → EReal) (Wl Wr : S128x128.Idx → EReal) (B : S1x128.Idx → EReal) : S50000x128.Idx → EReal :=
  fun i => Cert.Spec.combine (fun i k => A (ix2 i k)) (fun i k => X (ix2 i k)) (fun k j => Wl (ix2 k j)) (fun k j => Wr (ix2 k j))
    (fun j => B (ix2 0 j)) (i 0) (i 1)

theorem lay_hz : (![0, 0] : Fin 2 → Nat) = fun _ => 0 := funext fun a => by fin_cases a <;> rfl

-- relu((a·Wl + x·Wr) + b) at row p of a block is the layer at row r of the arrays, when row p of the blocks is row r of the arrays
theorem lay_row {f : Vec Ideal S5000x128 .f32 → Vec Ideal S5000x128 .f32 → Vec Ideal S128x128 .f32 → Vec Ideal S128x128 .f32 →
      Vec Ideal S1x128 .f32 → FVec Ideal S5000x128 .f32} (hf : f = k1_pay1)
    (A X : S50000x128.Idx → EReal) (Wl Wr : S128x128.Idx → EReal) (B : S1x128.Idx → EReal) (a x : S5000x128.Idx → EReal)
    (p : Fin 5000) (q : Fin 128) (r : Fin 50000) (ha : ∀ k, a (ix2 p k) = A (ix2 r k)) (hx : ∀ k, x (ix2 p k) = X (ix2 r k)) :
    View.canon [(⟨Rect.unit (s := S5000x128) ![0, 0] S5000x128.size inb_S5000x128_S5000x128_0_0,
        f (View.ld a (Rect.unit (s := S5000x128) ![0, 0] S5000x128.size inb_S5000x128_S5000x128_0_0))
          (View.ld x (Rect.unit (s := S5000x128) ![0, 0] S5000x128.size inb_S5000x128_S5000x128_0_0))
          (View.ld Wl (Rect.unit (s := S128x128) ![0, 0] S128x128.size inb_S128x128_S128x128_0_0))
          (View.ld Wr (Rect.unit (s := S128x128) ![0, 0] S128x128.size inb_S128x128_S128x128_0_0))
          (View.ld B (Rect.unit (s := S1x128) ![0, 0] S1x128.size inb_S1x128_S1x128_0_0))⟩ : View.Piece (Elt Ideal) S5000x128 .f32)] (ix2 p q)
      = layerOf A X Wl Wr B (ix2 r q) := by
  subst hf
  rw [View.canon_unit_zero lay_hz, View.ld_unit_zero lay_hz, View.ld_unit_zero lay_hz, View.ld_unit_zero lay_hz,
    View.ld_unit_zero lay_hz, View.ld_unit_zero lay_hz]
  unfold k1_pay1
  simp only [shapeCast_self]
  rw [maximumf_apply, addf_apply, addf_apply, lay_matmul, lay_matmul, broadcastTo_1b_ab_apply, broadcast_apply]
  simp only [truncf_apply, ha, hx]
  show max _ (Ideal.ofBits .f32 0x00000000#32) = _
  rw [Ideal.ofBits_zero_f32]
  rfl

-- an index of the 50000×128 array whose coordinates are block index × block size + (p, k), at block index (t, 0), is (5000·t + p, k)
theorem row_emb {x : S50000x128.Idx} {t i0 i1 : ℕ} {p : Fin 5000} {k : Fin 128} (h : t * 5000 + p.val < 50000)
    (h0 : (x 0 : ℕ) = i0 * 5000 + p) (h1 : (x 1 : ℕ) = i1 * 128 + k) (e0 : i0 = t) (e1 : i1 = 0) :
    x = ix2 (⟨t * 5000 + p.val, h⟩ : Fin 50000) k := by
  subst e0 e1
  exact Shape.idx_ext₂ h0 (h1.trans (show 0 * 128 + k.val = k.val by omega))

end Cert.KernelIdeal.Hand

end
-- ==== Proof.KI.Val0.lean ====
import proofs.«427134_j31456340476253_1_alg».proof.Proof.KI.Reg0
import proofs.«427134_j31456340476253_1_alg».proof.Proof.KI.LayerPay

noncomputable section

namespace Cert.KernelIdeal.Hand

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem idx0 : ∀ t : Fin cfg0.N,
    (win0_5.index t 0 = t.val ∧ win0_5.index t 1 = 0) ∧ (win0_0.index t 0 = t.val ∧ win0_0.index t 1 = 0)
    ∧ (win0_1.index t 0 = t.val ∧ win0_1.index t 1 = 0)
    ∧ (∀ a, win0_2.index t a = 0) ∧ (∀ a, win0_3.index t a = 0) ∧ (∀ a, win0_4.index t a = 0) :=
  (by decide +kernel : ∀ t : Fin grid0.N, _)

-- the block index is (t, 0) and a block is 5000 rows high, so block t starts at row 5000·t
theorem emb0 (t : Fin cfg0.N) (p : Fin 5000) (q : Fin 128) (hr : t.val * 5000 + p.val < 50000) :
    ((cfg0.win 5).blk t).view.emb (ix2 p q) = ix2 (⟨t.val * 5000 + p.val, hr⟩ : Fin 50000) q :=
  row_emb hr (win0_5.rect_emb_val t _ 0) (win0_5.rect_emb_val t _ 1) (idx0 t).1.1 (idx0 t).1.2

-- a block's row is the layer at the matching row of the arrays; the weight and bias blocks are the whole matrices
theorem flushed0_eq (c : Dev nD) (t : Fin cfg0.N) :
    (dat0 (F := Ideal) V c).flushed 5 t
      = ((cfg0.win 5).blk t).view.read (Elt Ideal) (layerOf (V c main_v22) (V c main_arg0) (V c main_arg4) (V c main_arg5) (V c main_v23)) := by
  obtain ⟨-, e0, e1, e2, e3, e4⟩ := idx0 t
  show (cfg0.win 5).cut (grid0.coords t) ((dat0 V c).after 5 t) = _
  rw [after0_5]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by
    have := lt_of_lt_of_eq t.isLt N_0
    omega
  show out0_5 (iblk0 V c 0 t) (iblk0 V c 1 t) (iblk0 V c 2 t) (iblk0 V c 3 t) (iblk0 V c 4 t) (ix2 p q)
      = layerOf _ _ _ _ _ (((cfg0.win 5).blk t).view.emb (ix2 p q))
  rw [emb0 t p q hr,
    show iblk0 V c 2 t = V c main_arg4 from funext fun y => congrArg _ (funext fun a => Fin.ext (win0_2.rect_emb_val_of_index_zero t a (e2 a) y)),
    show iblk0 V c 3 t = V c main_arg5 from funext fun y => congrArg _ (funext fun a => Fin.ext (win0_3.rect_emb_val_of_index_zero t a (e3 a) y)),
    show iblk0 V c 4 t = V c main_v23 from funext fun y => congrArg _ (funext fun a => Fin.ext (win0_4.rect_emb_val_of_index_zero t a (e4 a) y))]
  exact lay_row k0_eq _ _ _ _ _ _ _ p q ⟨_, hr⟩
    (fun k => congrArg (V c main_v22) (row_emb hr (win0_0.rect_emb_val t (ix2 p k) 0) (win0_0.rect_emb_val t _ 1) e0.1 e0.2))
    (fun k => congrArg (V c main_arg0) (row_emb hr (win0_1.rect_emb_val t (ix2 p k) 0) (win0_1.rect_emb_val t _ 1) e1.1 e1.2))

-- r = 5000·(r / 5000) + r % 5000, so the ten blocks cover the rows
theorem cover0 (i : S50000x128.Idx) :
    ∃ t : Fin cfg0.N, (cfg0.win 5).flush t = true ∧ i ∈ ((cfg0.win 5).blk t).view.set := by
  have h0 : (i 0).val < 50000 := (i 0).isLt
  have hN : (i 0).val / 5000 < cfg0.N := lt_of_lt_of_eq (show (i 0).val / 5000 < 10 by omega) N_0.symm
  have hp : (i 0).val % 5000 < 5000 := Nat.mod_lt _ (by decide)
  have hr : (i 0).val / 5000 * 5000 + (i 0).val % 5000 < 50000 := by omega
  refine ⟨⟨(i 0).val / 5000, hN⟩, flush0_5 _, ?_⟩
  have h := ((cfg0.win 5).blk ⟨(i 0).val / 5000, hN⟩).view.emb_mem_set (ix2 (⟨(i 0).val % 5000, hp⟩ : Fin 5000) (i 1))
  rwa [((emb0 ⟨(i 0).val / 5000, hN⟩ ⟨(i 0).val % 5000, hp⟩ (i 1) hr).trans
    (Shape.idx_ext₂ (Nat.div_add_mod' _ _) rfl) : _ = i)] at h

theorem final0 (c : Dev nD) (i : Fin 50000) (j : Fin 128) :
    (dat0 (F := Ideal) V c).arrAt 5 cfg0.N (ix2 i j)
      = Cert.Spec.combine (fun i k => (V c main_v22 : S50000x128.Idx → EReal) (ix2 i k)) (fun i k => (V c main_arg0 : S50000x128.Idx → EReal) (ix2 i k))
          (fun k j => (V c main_arg4 : S128x128.Idx → EReal) (ix2 k j)) (fun k j => (V c main_arg5 : S128x128.Idx → EReal) (ix2 k j))
          (fun j => (V c main_v23 : S1x128.Idx → EReal) (ix2 0 j)) i j :=
  congrFun ((dat0 (F := Ideal) V c).arrAt_eq_of_cover 5 _ (fun t _ => flushed0_eq V c t) cover0) (ix2 i j)

end Cert.KernelIdeal.Hand

end
-- ==== Proof.KI.Val1.lean ====
import proofs.«427134_j31456340476253_1_alg».proof.Proof.KI.Reg1
import proofs.«427134_j31456340476253_1_alg».proof.Proof.KI.LayerPay

noncomputable section

namespace Cert.KernelIdeal.Hand

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem idx1 : ∀ t : Fin cfg1.N,
    (win1_5.index t 0 = t.val ∧ win1_5.index t 1 = 0) ∧ (win1_0.index t 0 = t.val ∧ win1_0.index t 1 = 0)
    ∧ (win1_1.index t 0 = t.val ∧ win1_1.index t 1 = 0)
    ∧ (∀ a, win1_2.index t a = 0) ∧ (∀ a, win1_3.index t a = 0) ∧ (∀ a, win1_4.index t a = 0) :=
  (by decide +kernel : ∀ t : Fin grid1.N, _)

-- the block index is (t, 0) and a block is 5000 rows high, so block t starts at row 5000·t
theorem emb1 (t : Fin cfg1.N) (p : Fin 5000) (q : Fin 128) (hr : t.val * 5000 + p.val < 50000) :
    ((cfg1.win 5).blk t).view.emb (ix2 p q) = ix2 (⟨t.val * 5000 + p.val, hr⟩ : Fin 50000) q :=
  row_emb hr (win1_5.rect_emb_val t _ 0) (win1_5.rect_emb_val t _ 1) (idx1 t).1.1 (idx1 t).1.2

-- a block's row is the layer at the matching row of the arrays; the weight and bias blocks are the whole matrices
theorem flushed1_eq (c : Dev nD) (t : Fin cfg1.N) :
    (dat1 (F := Ideal) V c).flushed 5 t
      = ((cfg1.win 5).blk t).view.read (Elt Ideal) (layerOf (V c main_v36) (V c main_v24) (V c main_arg7) (V c main_arg8) (V c main_v37)) := by
  obtain ⟨-, e0, e1, e2, e3, e4⟩ := idx1 t
  show (cfg1.win 5).cut (grid1.coords t) ((dat1 V c).after 5 t) = _
  rw [after1_5]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by
    have := lt_of_lt_of_eq t.isLt N_1
    omega
  show out1_5 (iblk1 V c 0 t) (iblk1 V c 1 t) (iblk1 V c 2 t) (iblk1 V c 3 t) (iblk1 V c 4 t) (ix2 p q)
      = layerOf _ _ _ _ _ (((cfg1.win 5).blk t).view.emb (ix2 p q))
  rw [emb1 t p q hr,
    show iblk1 V c 2 t = V c main_arg7 from funext fun y => congrArg _ (funext fun a => Fin.ext (win1_2.rect_emb_val_of_index_zero t a (e2 a) y)),
    show iblk1 V c 3 t = V c main_arg8 from funext fun y => congrArg _ (funext fun a => Fin.ext (win1_3.rect_emb_val_of_index_zero t a (e3 a) y)),
    show iblk1 V c 4 t = V c main_v37 from funext fun y => congrArg _ (funext fun a => Fin.ext (win1_4.rect_emb_val_of_index_zero t a (e4 a) y))]
  exact lay_row rfl _ _ _ _ _ _ _ p q ⟨_, hr⟩
    (fun k => congrArg (V c main_v36) (row_emb hr (win1_0.rect_emb_val t (ix2 p k) 0) (win1_0.rect_emb_val t _ 1) e0.1 e0.2))
    (fun k => congrArg (V c main_v24) (row_emb hr (win1_1.rect_emb_val t (ix2 p k) 0) (win1_1.rect_emb_val t _ 1) e1.1 e1.2))

-- r = 5000·(r / 5000) + r % 5000, so the ten blocks cover the rows
theorem cover1 (i : S50000x128.Idx) :
    ∃ t : Fin cfg1.N, (cfg1.win 5).flush t = true ∧ i ∈ ((cfg1.win 5).blk t).view.set := by
  have h0 : (i 0).val < 50000 := (i 0).isLt
  have hN : (i 0).val / 5000 < cfg1.N := lt_of_lt_of_eq (show (i 0).val / 5000 < 10 by omega) N_1.symm
  have hp : (i 0).val % 5000 < 5000 := Nat.mod_lt _ (by decide)
  have hr : (i 0).val / 5000 * 5000 + (i 0).val % 5000 < 50000 := by omega
  refine ⟨⟨(i 0).val / 5000, hN⟩, flush1_5 _, ?_⟩
  have h := ((cfg1.win 5).blk ⟨(i 0).val / 5000, hN⟩).view.emb_mem_set (ix2 (⟨(i 0).val % 5000, hp⟩ : Fin 5000) (i 1))
  rwa [((emb1 ⟨(i 0).val / 5000, hN⟩ ⟨(i 0).val % 5000, hp⟩ (i 1) hr).trans
    (Shape.idx_ext₂ (Nat.div_add_mod' _ _) rfl) : _ = i)] at h

theorem final1 (c : Dev nD) (i : Fin 50000) (j : Fin 128) :
    (dat1 (F := Ideal) V c).arrAt 5 cfg1.N (ix2 i j)
      = Cert.Spec.combine (fun i k => (V c main_v36 : S50000x128.Idx → EReal) (ix2 i k)) (fun i k => (V c main_v24 : S50000x128.Idx → EReal) (ix2 i k))
          (fun k j => (V c main_arg7 : S128x128.Idx → EReal) (ix2 k j)) (fun k j => (V c main_arg8 : S128x128.Idx → EReal) (ix2 k j))
          (fun j => (V c main_v37 : S1x128.Idx → EReal) (ix2 0 j)) i j :=
  congrFun ((dat1 (F := Ideal) V c).arrAt_eq_of_cover 5 _ (fun t _ => flushed1_eq V c t) cover1) (ix2 i j)

end Cert.KernelIdeal.Hand

end
-- ==== Proof.KI.Val2.lean ====
import proofs.«427134_j31456340476253_1_alg».proof.Proof.KI.Reg2
import proofs.«427134_j31456340476253_1_alg».proof.Proof.KI.LayerPay

noncomputable section

namespace Cert.KernelIdeal.Hand

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem idx2 : ∀ t : Fin cfg2.N,
    (win2_5.index t 0 = t.val ∧ win2_5.index t 1 = 0) ∧ (win2_0.index t 0 = t.val ∧ win2_0.index t 1 = 0)
    ∧ (win2_1.index t 0 = t.val ∧ win2_1.index t 1 = 0)
    ∧ (∀ a, win2_2.index t a = 0) ∧ (∀ a, win2_3.index t a = 0) ∧ (∀ a, win2_4.index t a = 0) :=
  (by decide +kernel : ∀ t : Fin grid2.N, _)

-- the block index is (t, 0) and a block is 5000 rows high, so block t starts at row 5000·t
theorem emb2 (t : Fin cfg2.N) (p : Fin 5000) (q : Fin 128) (hr : t.val * 5000 + p.val < 50000) :
    ((cfg2.win 5).blk t).view.emb (ix2 p q) = ix2 (⟨t.val * 5000 + p.val, hr⟩ : Fin 50000) q :=
  row_emb hr (win2_5.rect_emb_val t _ 0) (win2_5.rect_emb_val t _ 1) (idx2 t).1.1 (idx2 t).1.2

-- a block's row is the layer at the matching row of the arrays; the weight and bias blocks are the whole matrices
theorem flushed2_eq (c : Dev nD) (t : Fin cfg2.N) :
    (dat2 (F := Ideal) V c).flushed 5 t
      = ((cfg2.win 5).blk t).view.read (Elt Ideal) (layerOf (V c main_v50) (V c main_v38) (V c main_arg10) (V c main_arg11) (V c main_v51)) := by
  obtain ⟨-, e0, e1, e2, e3, e4⟩ := idx2 t
  show (cfg2.win 5).cut (grid2.coords t) ((dat2 V c).after 5 t) = _
  rw [after2_5]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by
    have := lt_of_lt_of_eq t.isLt N_2
    omega
  show out2_5 (iblk2 V c 0 t) (iblk2 V c 1 t) (iblk2 V c 2 t) (iblk2 V c 3 t) (iblk2 V c 4 t) (ix2 p q)
      = layerOf _ _ _ _ _ (((cfg2.win 5).blk t).view.emb (ix2 p q))
  rw [emb2 t p q hr,
    show iblk2 V c 2 t = V c main_arg10 from funext fun y => congrArg _ (funext fun a => Fin.ext (win2_2.rect_emb_val_of_index_zero t a (e2 a) y)),
    show iblk2 V c 3 t = V c main_arg11 from funext fun y => congrArg _ (funext fun a => Fin.ext (win2_3.rect_emb_val_of_index_zero t a (e3 a) y)),
    show iblk2 V c 4 t = V c main_v51 from funext fun y => congrArg _ (funext fun a => Fin.ext (win2_4.rect_emb_val_of_index_zero t a (e4 a) y))]
  exact lay_row rfl _ _ _ _ _ _ _ p q ⟨_, hr⟩
    (fun k => congrArg (V c main_v50) (row_emb hr (win2_0.rect_emb_val t (ix2 p k) 0) (win2_0.rect_emb_val t _ 1) e0.1 e0.2))
    (fun k => congrArg (V c main_v38) (row_emb hr (win2_1.rect_emb_val t (ix2 p k) 0) (win2_1.rect_emb_val t _ 1) e1.1 e1.2))

-- r = 5000·(r / 5000) + r % 5000, so the ten blocks cover the rows
theorem cover2 (i : S50000x128.Idx) :
    ∃ t : Fin cfg2.N, (cfg2.win 5).flush t = true ∧ i ∈ ((cfg2.win 5).blk t).view.set := by
  have h0 : (i 0).val < 50000 := (i 0).isLt
  have hN : (i 0).val / 5000 < cfg2.N := lt_of_lt_of_eq (show (i 0).val / 5000 < 10 by omega) N_2.symm
  have hp : (i 0).val % 5000 < 5000 := Nat.mod_lt _ (by decide)
  have hr : (i 0).val / 5000 * 5000 + (i 0).val % 5000 < 50000 := by omega
  refine ⟨⟨(i 0).val / 5000, hN⟩, flush2_5 _, ?_⟩
  have h := ((cfg2.win 5).blk ⟨(i 0).val / 5000, hN⟩).view.emb_mem_set (ix2 (⟨(i 0).val % 5000, hp⟩ : Fin 5000) (i 1))
  rwa [((emb2 ⟨(i 0).val / 5000, hN⟩ ⟨(i 0).val % 5000, hp⟩ (i 1) hr).trans
    (Shape.idx_ext₂ (Nat.div_add_mod' _ _) rfl) : _ = i)] at h

theorem final2 (c : Dev nD) (i : Fin 50000) (j : Fin 128) :
    (dat2 (F := Ideal) V c).arrAt 5 cfg2.N (ix2 i j)
      = Cert.Spec.combine (fun i k => (V c main_v50 : S50000x128.Idx → EReal) (ix2 i k)) (fun i k => (V c main_v38 : S50000x128.Idx → EReal) (ix2 i k))
          (fun k j => (V c main_arg10 : S128x128.Idx → EReal) (ix2 k j)) (fun k j => (V c main_arg11 : S128x128.Idx → EReal) (ix2 k j))
          (fun j => (V c main_v51 : S1x128.Idx → EReal) (ix2 0 j)) i j :=
  congrFun ((dat2 (F := Ideal) V c).arrAt_eq_of_cover 5 _ (fun t _ => flushed2_eq V c t) cover2) (ix2 i j)

end Cert.KernelIdeal.Hand

end
-- ==== Proof.KI.Val3.lean ====
import proofs.«427134_j31456340476253_1_alg».proof.Proof.KI.Reg3
import proofs.«427134_j31456340476253_1_alg».proof.Proof.KI.LayerPay

noncomputable section

namespace Cert.KernelIdeal.Hand

open Idealize.ShloMosaic Idealize.ShloMosaic.TcCoe Idealize.ShloMosaic.ValueIdx
open Idealize.SL.Sem
open Cert.KernelIdeal Cert.KernelIdeal.Gen

variable (V : (c : Dev nD) → (b : Ref sig .tc) → Buf (Elt Ideal) ((c : Thread nD τ).loc b))

theorem idx3 : ∀ t : Fin cfg3.N,
    (win3_5.index t 0 = t.val ∧ win3_5.index t 1 = 0) ∧ (win3_0.index t 0 = t.val ∧ win3_0.index t 1 = 0)
    ∧ (win3_1.index t 0 = t.val ∧ win3_1.index t 1 = 0)
    ∧ (∀ a, win3_2.index t a = 0) ∧ (∀ a, win3_3.index t a = 0) ∧ (∀ a, win3_4.index t a = 0) :=
  (by decide +kernel : ∀ t : Fin grid3.N, _)

-- the block index is (t, 0) and a block is 5000 rows high, so block t starts at row 5000·t
theorem emb3 (t : Fin cfg3.N) (p : Fin 5000) (q : Fin 128) (hr : t.val * 5000 + p.val < 50000) :
    ((cfg3.win 5).blk t).view.emb (ix2 p q) = ix2 (⟨t.val * 5000 + p.val, hr⟩ : Fin 50000) q :=
  row_emb hr (win3_5.rect_emb_val t _ 0) (win3_5.rect_emb_val t _ 1) (idx3 t).1.1 (idx3 t).1.2

-- a block's row is the layer at the matching row of the arrays; the weight and bias blocks are the whole matrices
theorem flushed3_eq (c : Dev nD) (t : Fin cfg3.N) :
    (dat3 (F := Ideal) V c).flushed 5 t
      = ((cfg3.win 5).blk t).view.read (Elt Ideal) (layerOf (V c main_v64) (V c main_v52) (V c main_arg13) (V c main_arg14) (V c main_v65)) := by
  obtain ⟨-, e0, e1, e2, e3, e4⟩ := idx3 t
  show (cfg3.win 5).cut (grid3.coords t) ((dat3 V c).after 5 t) = _
  rw [after3_5]
  refine funext fun (j : S5000x128.Idx) => ?_
  obtain ⟨p, q, rfl⟩ : ∃ (p : Fin 5000) (q : Fin 128), j = ix2 p q := ⟨j 0, j 1, eq_ix2 j⟩
  have hr : t.val * 5000 + p.val < 50000 := by
    have := lt_of_lt_of_eq t.isLt N_3
    omega
  show out3_5 (iblk3 V c 0 t) (iblk3 V c 1 t) (iblk3 V c 2 t) (iblk3 V c 3 t) (iblk3 V c 4 t) (ix2 p q)
      = layerOf _ _ _ _ _ (((cfg3.win 5).blk t).view.emb (ix2 p q))
  rw [emb3 t p q hr,
    show iblk3 V c 2 t = V c main_arg13 from funext fun y => congrArg _ (funext fun a => Fin.ext (win3_2.rect_emb_val_of_index_zero t a (e2 a) y)),
    show iblk3 V c 3 t = V c main_arg14 from funext fun y => congrArg _ (funext fun a => Fin.ext (win3_3.rect_emb_val_of_index_zero t a (e3 a) y)),
    show iblk3 V c 4 t = V c main_v65 from funext fun y => congrArg _ (funext fun a => Fin.ext (win3_4.rect_emb_val_of_index_zero t a (e4 a) y))]
  exact lay_row rfl _ _ _ _ _ _ _ p q ⟨_, hr⟩
    (fun k => congrArg (V c main_v64) (row_emb hr (win3_0.rect_emb_val t (ix2 p k) 0) (win3_0.rect_emb_val t _ 1) e0.1 e0.2))
    (fun k => congrArg (V c main_v52) (row_emb hr (win3_1.rect_emb_val t (ix2 p k) 0) (win3_1.rect_emb_val t _ 1) e1.1 e1.2))

-- r = 5000·(r / 5000) + r % 5000, so the ten blocks cover the rows
theorem cover3 (i : S50000x128.Idx) :
    ∃ t : Fin cfg3.N, (cfg3.win 5).flush t = true ∧ i ∈ ((cfg3.win 5).blk t).view.set := by
  have h0 : (i 0).val < 50000 := (i 0).isLt
  have hN : (i 0).val / 5000 < cfg3.N := lt_of_lt_of_eq (show (i 0).val / 5000 < 10 by omega) N_3.symm
  have hp : (i 0).val % 5000 < 5000 := Nat.mod_lt _ (by decide)
  have hr : (i 0).val / 5000 * 5000 + (i 0).val % 5000 < 50000 := by omega
  refine ⟨⟨(i 0).val / 5000, hN⟩, flush3_5 _, ?_⟩
  have h := ((cfg3.win 5).blk ⟨(i 0).val / 5000, hN⟩).view.emb_mem_set (ix2 (⟨(i 0).val % 5000, hp⟩ : Fin 5000) (i 1))
  rwa [((emb3 ⟨(i 0).val / 5000, hN⟩ ⟨(i 0).val % 5000, hp⟩ (i 1) hr).trans
    (Shape.idx_ext₂ (Nat.div_add_mod' _ _) rfl) : _ = i)] at h

theorem final3 (c : Dev nD) (i : Fin 50000) (j : Fin 128) :
    (dat3 (F := Ideal) V c).arrAt 5 cfg3.N (ix2 i j)
      = Cert.Spec.combine (fun i k => (V c main_v64 : S50000x128.Idx → EReal) (ix2 i k)) (fun i k => (V c main_v52 : S50000x128.Idx → EReal) (ix2 i k))
          (fun k j => (V c main_arg13 : S128x128.Idx → EReal) (ix2 k j)) (fun k j => (V c main_arg14 : S128x128.Idx → EReal) (ix2 k j))
          (fun j => (V c main_v65 : S1x128.Idx → EReal) (ix2 0 j)) i j :=
  congrFun ((dat3 (F := Ideal) V c).arrAt_eq_of_cover 5 _ (fun t _ => flushed3_eq V c t) cover3) (ix2 i j)

end Cert.KernelIdeal.Hand

end
-- ==== Proof.KI.Val4.lean ====
import proofs.«427134_j31456340476253_1_alg».proof.Proof.KI.Reg4
import proofs.«427134_j31456340476253_1_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin

set_option maxRecDepth 16384

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

theorem pool_zero_apply (j : S64x128.Idx) : k4_pay1 (F := Ideal) j = 0 := by
  unfold k4_pay1
  simp only [shapeCast_self]
  exact Ideal.ofBits_zero_f32

theorem pool_step_apply (x : Vec Ideal S5000x64 .f32) (y : Vec Ideal S5000x128 .f32) (a : Vec Ideal S64x128 .f32)
    (g : Fin 64) (d : Fin 128) :
    k4_pay2 (F := Ideal) x y a (ix2 g d) = a (ix2 g d) + ∑ k : Fin 5000, x (ix2 k g) * y (ix2 k d) := by
  unfold k4_pay2
  simp only [shapeCast_self]
  refine congrArg (a (ix2 g d) + ·) ?_
  refine (Ideal.matmul_constant_zero_apply dot_S5000x64_S5000x128_S64x128_0_0_1_1_n_n none _ _ (ix2 g d)).trans ?_
  rw [← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g d) ((contrEquiv1 dot_S5000x64_S5000x128_S64x128_0_0_1_1_n_n 5000 rfl rfl).symm k) = ix2 k d := funext fun a => Fin.ext (by
    match a with
    | ⟨0, _⟩ => exact (rhs_pool_0 _ _).trans hk
    | ⟨1, _⟩ => exact rhs_pool_1 _ _)
  rw [el, er]
  rfl

def poolRow (a : Fin 10) (k : Fin 5000) : Fin 50000 := ⟨5000 * a.val + k.val, by have := a.isLt; have := k.isLt; omega⟩

def poolRowEquiv : Fin 10 × Fin 5000 ≃ Fin 50000 := finProdFinEquiv

theorem poolRowEquiv_apply (a : Fin 10) (k : Fin 5000) : poolRowEquiv (a, k) = poolRow a k :=
  Fin.ext (by show k.val + 5000 * a.val = 5000 * a.val + k.val; omega)

theorem pool_sum_rows (f : Fin 50000 → EReal) : ∑ n, f n = ∑ a : Fin 10, ∑ k : Fin 5000, f (poolRow a k) := by
  rw [← Equiv.sum_comp poolRowEquiv f, Fintype.sum_prod_type]
  simp only [poolRowEquiv_apply]

section Region4

variable (V : (c : Dev nD) → (b : Ref sig .tc) → Buf (Elt Ideal) ((c : Thread nD τ).loc b))

theorem pool_index_facts : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

abbrev poolG (c : Dev nD) : Vec Ideal S50000x64 .f32 := V c main_v73
abbrev poolH (c : Dev nD) : Vec Ideal S50000x128 .f32 := V c main_v66

theorem pool_lhs_block (c : Dev nD) (t : Fin cfg4.N) (k : Fin 5000) (g : Fin 64) (r : Fin 50000)
    (hr : r.val = 5000 * t.val + k.val) :
    (iblk4 (F := Ideal) V c 0 t : Vec Ideal S5000x64 .f32) (ix2 k g) = poolG V c (ix2 r g) := by
  have hi := pool_index_facts t
  unfold iblk4
  rw [View.read_apply]
  show V c main_v73 _ = V c main_v73 _
  congr 1
  funext a
  apply Fin.ext
  match a with
  | ⟨0, _⟩ => show win4_0.index t 0 * 5000 + 1 * k.val = r.val; rw [hi.1, hr]; omega
  | ⟨1, _⟩ => show win4_0.index t 1 * 64 + 1 * g.val = g.val; rw [hi.2.1]; omega

theorem pool_rhs_block (c : Dev nD) (t : Fin cfg4.N) (k : Fin 5000) (d : Fin 128) (r : Fin 50000)
    (hr : r.val = 5000 * t.val + k.val) :
    (iblk4 (F := Ideal) V c 1 t : Vec Ideal S5000x128 .f32) (ix2 k d) = poolH V c (ix2 r d) := by
  have hi := pool_index_facts t
  unfold iblk4
  rw [View.read_apply]
  show V c main_v66 _ = V c main_v66 _
  congr 1
  funext a
  apply Fin.ext
  match a with
  | ⟨0, _⟩ => show win4_1.index t 0 * 5000 + 1 * k.val = r.val; rw [hi.2.2.1, hr]; omega
  | ⟨1, _⟩ => show win4_1.index t 1 * 128 + 1 * d.val = d.val; rw [hi.2.2.2]; omega

def poolBlockSum (c : Dev nD) (g : Fin 64) (d : Fin 128) (a : Fin 10) : EReal :=
  ∑ k : Fin 5000, poolG V c (ix2 (poolRow a k) g) * poolH V c (ix2 (poolRow a k) d)

theorem pool_point_apply (c : Dev nD) (t : Fin cfg4.N) (ht : t.val < 10) (acc : Vec Ideal S64x128 .f32) (g : Fin 64) (d : Fin 128) :
    k4_pay2 (F := Ideal) (iblk4 (F := Ideal) V c 0 t) (iblk4 (F := Ideal) V c 1 t) acc (ix2 g d)
      = acc (ix2 g d) + poolBlockSum V c g d ⟨t.val, ht⟩ := by
  refine (pool_step_apply (iblk4 (F := Ideal) V c 0 t) (iblk4 (F := Ideal) V c 1 t) acc g d).trans ?_
  refine congrArg (acc (ix2 g d) + ·) ?_
  refine Finset.sum_congr rfl fun k _ => ?_
  exact congrArg₂ (· * ·) (pool_lhs_block V c t k g (poolRow ⟨t.val, ht⟩ k) rfl) (pool_rhs_block V c t k d (poolRow ⟨t.val, ht⟩ k) rfl)

theorem pool_accAt_apply (c : Dev nD) (g : Fin 64) (d : Fin 128) : ∀ (n : ℕ) (hn : n < cfg4.N),
    accAt (F := Ideal) V c n hn (ix2 g d) = ∑ s ∈ Finset.range (n + 1), (if h : s < 10 then poolBlockSum V c g d ⟨s, h⟩ else 0)
  | 0, hn => by
    rw [accAt_zero, Finset.sum_range_one, dif_pos (by decide : 0 < 10)]
    refine (pool_point_apply V c ⟨0, hn⟩ (by show (0 : ℕ) < 10; decide) (k4_pay1 (F := Ideal)) g d).trans ?_
    rw [pool_zero_apply, zero_add]
  | n + 1, hn => by
    have h10 : n + 1 < 10 := by have hN : cfg4.N = 10 := N_4; omega
    rw [accAt_succ, Finset.sum_range_succ, dif_pos h10]
    refine (pool_point_apply V c ⟨n + 1, hn⟩ h10 (accAt (F := Ideal) V c n (Nat.lt_of_succ_lt hn)) g d).trans ?_
    rw [pool_accAt_apply c g d n (Nat.lt_of_succ_lt hn)]

theorem pool_accAt_last (c : Dev nD) (g : Fin 64) (d : Fin 128) :
    accAt (F := Ideal) V c 9 (by decide) (ix2 g d)
      = Cert.Spec.poolSum (fun n g => V c main_v73 (ix2 n g)) (fun n d => V c main_v66 (ix2 n d)) g d := by
  rw [pool_accAt_apply V c g d 9 (by decide)]
  show ∑ s ∈ Finset.range 10, _ = _
  rw [Finset.sum_range]
  unfold Cert.Spec.poolSum
  rw [pool_sum_rows]
  refine Finset.sum_congr rfl fun a _ => ?_
  rw [dif_pos a.isLt]
  rfl

theorem pool_out (c : Dev nD) :
    (dat4 (F := Ideal) V c).arrAt 2 cfg4.N = (accAt (F := Ideal) V c 9 (by decide) : Vec Ideal S64x128 .f32) := by
  have hz : (fun a => win4_2.index t4_9 a * main_v77.ty.shape.size a) = fun _ => 0 := funext fun a => by fin_cases a <;> decide
  refine (dat4 (F := Ideal) V c).arrAt_eq_of_cover 2 _ (fun t hf => ?_) (fun i => ⟨t4_9, (flush4_2 t4_9).mpr rfl, ?_⟩)
  · have hN : cfg4.N = 10 := N_4
    have h9 : t.val = 9 := by have := (flush4_2 t).mp hf; have := t.isLt; omega
    obtain rfl : t = t4_9 := Fin.ext h9
    show (cfg4.win 2).cut (grid4.coords t4_9) ((dat4 (F := Ideal) V c).after 2 t4_9) = _
    rw [after4_2]
    exact (Memref.read_access_unit_zero (Elt Ideal) main_v77 hz (fun a => by rw [congrFun hz a]; simp) _).symm
  · show i ∈ ((View.whole main_v77).slice (win4_2.rect t4_9)).set
    rw [View.set_slice_whole]
    exact View.mem_set_unit_zero (S := S64x128) hz _ i

theorem final4 (c : Dev nD) (g : Fin 64) (d : Fin 128) :
    (dat4 (F := Ideal) V c).arrAt 2 cfg4.N (ix2 g d)
      = Cert.Spec.poolSum (fun n g => V c main_v73 (ix2 n g)) (fun n d => V c main_v66 (ix2 n d)) g d :=
  (congrFun (pool_out V c) (ix2 g d)).trans (pool_accAt_last V c g d)

end Region4

end Cert.KernelIdeal.Hand

end
-- ==== Proof.RefLayer.lean ====
import proofs.«427134_j31456340476253_1_alg».proof.Proof.Gen.ReferenceIdeal
import proofs.«427134_j31456340476253_1_alg».proof.Proof.Spec
import Idealize.ShloMosaic.Lib.ValueIdx
import Idealize.ShloMosaic.Lib.ValueLayout
import Idealize.ShloMosaic.Lib.StackMember
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

def refLayer (A X : FVec Ideal S50000x128 .f32) (Wl Wr : FVec Ideal S128x128 .f32) (b : FVec Ideal S128 .f32) :
    FVec Ideal S50000x128 .f32 :=
  maximumf (addf (addf (Host.dotGeneral dot_S50000x128_S128x128_S50000x128_1_0_0_1_n_n none A Wl) (broadcastInDim S50000x128 ![0, 1] bcast_S1x128_S50000x128_0_1 (broadcastInDim S1x128 ![1] bcast_S128_S1x128_1 b))) (Host.dotGeneral dot_S50000x128_S128x128_S50000x128_1_0_0_1_n_n none X Wr)) (broadcastInDim S50000x128 ![] bcast_S_S50000x128 (constant S_ .f32 0x00000000#32))

theorem dot_apply (l : FVec Ideal S50000x128 .f32) (r : FVec Ideal S128x128 .f32) (i : Fin 50000) (j : Fin 128) :
    Host.dotGeneral (F := Ideal) dot_S50000x128_S128x128_S50000x128_1_0_0_1_n_n none l r (ix2 i j) = ∑ k : Fin 128, l (ix2 i k) * r (ix2 k j) :=
  StackMember.dotGeneral_plain_apply none l r i j

theorem bias_apply (b : FVec Ideal S128 .f32) (i : Fin 50000) (j : Fin 128) :
    broadcastInDim S50000x128 ![0, 1] bcast_S1x128_S50000x128_0_1 (broadcastInDim S1x128 ![1] bcast_S128_S1x128_1 b) (ix2 i j)
      = b (ix1 j) := by
  refine (broadcastInDim_apply _ bcast_S1x128_S50000x128_0_1 _ (ix2 i j) (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

theorem zero_apply (i : S50000x128.Idx) :
    broadcastInDim S50000x128 ![] bcast_S_S50000x128 (constant (F := Ideal) S_ .f32 0x00000000#32) i = (0 : EReal) := by
  refine (broadcastInDim_apply _ bcast_S_S50000x128 _ i ix0 (fun a => a.elim0)).trans ?_
  rw [constant_apply]
  exact Ideal.ofBits_zero_f32

theorem refLayer_apply (A X : FVec Ideal S50000x128 .f32) (Wl Wr : FVec Ideal S128x128 .f32) (b : FVec Ideal S128 .f32)
    (i : Fin 50000) (j : Fin 128) :
    refLayer A X Wl Wr b (ix2 i j)
      = Cert.Spec.combineRef (fun i k => A (ix2 i k)) (fun i k => X (ix2 i k)) (fun k j => Wl (ix2 k j))
          (fun k j => Wr (ix2 k j)) (fun j => b (ix1 j)) i j := by
  unfold refLayer
  rw [maximumf_apply, addf_apply, addf_apply, dot_apply, dot_apply, bias_apply, zero_apply]
  rfl

theorem shapeCast_bias_apply {α : Type} (b : (⟨1, ![128]⟩ : Shape).Idx → α)
    (h : (⟨1, ![128]⟩ : Shape).ShapeCasts ⟨2, ![1, 128]⟩) (j : Fin 128) :
    shapeCast ⟨2, ![1, 128]⟩ b h (ix2 (0 : Fin 1) j) = b (ix1 j) :=
  shapeCast_apply b h _ _ (by
    rw [Shape.rowMajor_val_two, Shape.rowMajor_val_one]
    show j.val = 0 * 128 + j.val
    omega)

end Cert.ReferenceIdeal.RefValue
-- ==== Proof.KI.Value.lean ====
import proofs.«427134_j31456340476253_1_alg».proof.Proof.KI.Chain
import proofs.«427134_j31456340476253_1_alg».proof.Proof.KI.Val0
import proofs.«427134_j31456340476253_1_alg».proof.Proof.KI.Val1
import proofs.«427134_j31456340476253_1_alg».proof.Proof.KI.Val2
import proofs.«427134_j31456340476253_1_alg».proof.Proof.KI.Val3
import proofs.«427134_j31456340476253_1_alg».proof.Proof.KI.Val4
import proofs.«427134_j31456340476253_1_alg».proof.Proof.RefLayer

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

abbrev h1 : Arr (F := Ideal) S50000x128 .f32 := W2 m c (Proc.devRef .tc main_v24)
abbrev h2 : Arr (F := Ideal) S50000x128 .f32 := W4 m c (Proc.devRef .tc main_v38)
abbrev h3 : Arr (F := Ideal) S50000x128 .f32 := W6 m c (Proc.devRef .tc main_v52)
abbrev h4 : Arr (F := Ideal) S50000x128 .f32 := W8 m c (Proc.devRef .tc main_v66)

theorem biasRow_apply (b : Arr (F := Ideal) S128 .f32) (j : Fin 128) : biasRow (F := Ideal) b (ix2 (0 : Fin 1) j) = b (ix1 j) :=
  Cert.ReferenceIdeal.RefValue.shapeCast_bias_apply b shapeCasts_S128_S1x128 j

theorem h1_apply (i : Fin 50000) (j : Fin 128) :
    h1 m c (ix2 i j)
      = Cert.Spec.combine (fun i k => (agg (m ((c.tc : Thread nD τ).loc main_arg0)) (m ((c.tc : Thread nD τ).loc main_arg1)) : Arr (F := Ideal) S50000x128 .f32) (ix2 i k)) (fun i k => ((m ((c.tc : Thread nD τ).loc main_arg0)) : Arr (F := Ideal) S50000x128 .f32) (ix2 i k))
          (fun k j => (m ((c.tc : Thread nD τ).loc main_arg4)) (ix2 k j)) (fun k j => (m ((c.tc : Thread nD τ).loc main_arg5)) (ix2 k j)) (fun j => (m ((c.tc : Thread nD τ).loc main_arg6)) (ix1 j)) i j := by
  show W2 m c (Proc.devRef .tc (Pipeline.arrRef spec0 5)) (ix2 i j) = _
  rw [W2_arr m c 5, final0 (U1 m) c i j]
  dsimp only [U1]
  rw [W1_v22_raw, W1_arg0, W1_arg4, W1_arg5, W1_v23_raw]
  simp only [biasRow_apply]

theorem h2_apply (i : Fin 50000) (j : Fin 128) :
    h2 m c (ix2 i j)
      = Cert.Spec.combine (fun i k => (agg (h1 m c) (m ((c.tc : Thread nD τ).loc main_arg1)) : Arr (F := Ideal) S50000x128 .f32) (ix2 i k)) (fun i k => ((h1 m c) : Arr (F := Ideal) S50000x128 .f32) (ix2 i k))
          (fun k j => (m ((c.tc : Thread nD τ).loc main_arg7)) (ix2 k j)) (fun k j => (m ((c.tc : Thread nD τ).loc main_arg8)) (ix2 k j)) (fun j => (m ((c.tc : Thread nD τ).loc main_arg9)) (ix1 j)) i j := by
  show W4 m c (Proc.devRef .tc (Pipeline.arrRef spec1 5)) (ix2 i j) = _
  rw [W4_arr m c 5, final1 (U3 m) c i j]
  dsimp only [U3]
  rw [W3_v36, W3_v24, W3_arg7, W3_arg8, W3_v37]
  simp only [biasRow_apply]

theorem h3_apply (i : Fin 50000) (j : Fin 128) :
    h3 m c (ix2 i j)
      = Cert.Spec.combine (fun i k => (agg (h2 m c) (m ((c.tc : Thread nD τ).loc main_arg1)) : Arr (F := Ideal) S50000x128 .f32) (ix2 i k)) (fun i k => ((h2 m c) : Arr (F := Ideal) S50000x128 .f32) (ix2 i k))
          (fun k j => (m ((c.tc : Thread nD τ).loc main_arg10)) (ix2 k j)) (fun k j => (m ((c.tc : Thread nD τ).loc main_arg11)) (ix2 k j)) (fun j => (m ((c.tc : Thread nD τ).loc main_arg12)) (ix1 j)) i j := by
  show W6 m c (Proc.devRef .tc (Pipeline.arrRef spec2 5)) (ix2 i j) = _
  rw [W6_arr m c 5, final2 (U5 m) c i j]
  dsimp only [U5]
  rw [W5_v50, W5_v38, W5_arg10, W5_arg11, W5_v51]
  simp only [biasRow_apply]

theorem h4_apply (i : Fin 50000) (j : Fin 128) :
    h4 m c (ix2 i j)
      = Cert.Spec.combine (fun i k => (agg (h3 m c) (m ((c.tc : Thread nD τ).loc main_arg1)) : Arr (F := Ideal) S50000x128 .f32) (ix2 i k)) (fun i k => ((h3 m c) : Arr (F := Ideal) S50000x128 .f32) (ix2 i k))
          (fun k j => (m ((c.tc : Thread nD τ).loc main_arg13)) (ix2 k j)) (fun k j => (m ((c.tc : Thread nD τ).loc main_arg14)) (ix2 k j)) (fun j => (m ((c.tc : Thread nD τ).loc main_arg15)) (ix1 j)) i j := by
  show W8 m c (Proc.devRef .tc (Pipeline.arrRef spec3 5)) (ix2 i j) = _
  rw [W8_arr m c 5, final3 (U7 m) c i j]
  dsimp only [U7]
  rw [W7_v64, W7_v52, W7_arg13, W7_arg14, W7_v65]
  simp only [biasRow_apply]

theorem pool_apply (g : Fin 64) (k : Fin 128) :
    (W10 m c (Proc.devRef .tc main_v77) : Arr (F := Ideal) S64x128 .f32) (ix2 g k)
      = Cert.Spec.poolSum (fun n g => oneHot (F := Ideal) (m ((c.tc : Thread nD τ).loc main_arg3)) (ix2 n g)) (fun n k => h4 m c (ix2 n k)) g k := by
  show W10 m c (Proc.devRef .tc (Pipeline.arrRef spec4 2)) (ix2 g k) = _
  rw [W10_arr m c 2, final4 (U9 m) c g k]
  dsimp only [U9]
  rw [W9_v73, W9_v66]

end Cert.KernelIdeal.Hand

end
-- ==== Proof.LibScatterGather.lean ====
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecScatter_lands {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  rw [resultIdx?_eq_some_iff]
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl)]
    have hsi : (vecScatter N M wf).siIdx (ix1 e) ⟨List.idxOf (0 : Fin 1) (vecScatter N M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (vecScatter N M wf).window (ix1 e) 0 = 0 := by
    unfold ScatterDims.window
    rw [dif_neg]
    intro hm
    have := (List.mem_filter.mp hm).2
    simp at this
  constructor
  · intro H
    have H0 : (vecScatter N M wf).start (ix1 e) idx 0 + ((vecScatter N M wf).window (ix1 e) 0 : Int)
        = (n.val : Int) := H 0
    rw [hs0, hw0] at H0
    simpa using H0
  · intro H a
    match a with
    | ⟨0, _⟩ =>
      show (vecScatter N M wf).start (ix1 e) idx 0 + ((vecScatter N M wf).window (ix1 e) 0 : Int) = (n.val : Int)
      rw [hs0, hw0, H]; simp

theorem vecScatter_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (vecScatter N M wf) x idx upd (ix1 n)
      = x (ix1 n) + ∑ e ∈ Finset.univ.filter (fun e : Fin M => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_lands]

theorem hostScatterAdd_vec_apply {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (n : Fin N) :
    Ideal.hostScatterAdd d x idx upd (ix1 n)
      = x (ix1 n) + ∑ e ∈ Finset.univ.filter (fun e : Fin M => (idx (ix2 e (0 : Fin 1))).toInt = (n.val : Int)),
          upd (ix1 e) := by
  obtain ⟨uw, iw, sd, iv, wf⟩ := d
  simp only at huw hiw hsd hiv
  subst huw hiw hsd hiv
  exact vecScatter_apply wf x idx upd n

theorem scatterAdd_vec_apply {φ : FTy} {N M w : Nat}
    (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ)
    (n : Fin N) :
    Host.scatterAdd d x idx upd (ix1 n)
      = x (ix1 n) + ∑ e ∈ Finset.univ.filter (fun e : Fin M => (idx (ix2 e (0 : Fin 1))).toInt = (n.val : Int)),
          upd (ix1 e) :=
  hostScatterAdd_vec_apply d huw hiw hsd hiv x idx upd n

theorem bit_cases (b : BitVec 1) : b = 0#1 ∨ b = 1#1 := by
  revert b; decide

theorem uitofp_bit {φ : FTy} (b : BitVec 1) : (FloatOps.uitofp φ b : Ideal φ) = if b = 1#1 then (1 : EReal) else 0 := by
  show (((b.toNat : ℝ)) : EReal) = _
  rcases bit_cases b with rfl | rfl
  · rw [if_neg (by decide)]; simp
  · rw [if_pos rfl]; simp

theorem ite_one_zero_mul (x : EReal) (c : Prop) [Decidable c] : (if c then (1 : EReal) else 0) * x = if c then x else 0 := by
  split_ifs
  · exact one_mul x
  · exact zero_mul x

end Cert.LibSG

end
-- ==== Proof.KI.PoolBridge.lean ====
import proofs.«427134_j31456340476253_1_alg».proof.Proof.KI.HostFns
import proofs.«427134_j31456340476253_1_alg».proof.Proof.Spec
import proofs.«427134_j31456340476253_1_alg».proof.Proof.LibScatterGather
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Idealize.ShloMosaic.Lib.Pipeline.Value

noncomputable section

open scoped BigOperators

namespace Cert.KernelIdeal.Hand

open Idealize.ShloMosaic Idealize.ShloMosaic.ValueIdx Cert.KernelIdeal Cert.KernelIdeal.Gen

theorem eq_ofNat_iff_toInt (w : BitVec 32) (g : Nat) (hg : g < 64) : w = BitVec.ofNat 32 g ↔ w.toInt = (g : Int) := by
  constructor
  · rintro rfl; exact StableHlo.Predicate.toInt_ofNat_small g (by omega)
  · intro h; exact BitVec.eq_of_toInt_eq (by rw [h, StableHlo.Predicate.toInt_ofNat_small g (by omega)])

theorem batchCols_apply (batch : Arr (F := Ideal) S50000 .i32) (n : Fin 50000) (g : Fin 64) :
    broadcastInDim S50000x64 ![0, 1] bcast_S50000x1_S50000x64_0_1
      (broadcastInDim S50000x1 ![0] bcast_S50000_S50000x1_0 batch) (ix2 n g) = batch (ix1 n) := by
  rw [broadcastInDim_apply _ bcast_S50000x1_S50000x64_0_1 _ (ix2 n g) (ix2 n (0 : Fin 1))
      (fun a => match a with | ⟨0, _⟩ => rfl | ⟨1, _⟩ => rfl),
    broadcastInDim_apply _ bcast_S50000_S50000x1_0 _ (ix2 n (0 : Fin 1)) (ix1 n)
      (fun a => match a with | ⟨0, _⟩ => rfl)]

theorem iotaRows_apply (n : Fin 50000) (g : Fin 64) :
    broadcastInDim S50000x64 ![0, 1] bcast_S1x64_S50000x64_0_1
      (broadcastInDim S1x64 ![1] bcast_S64_S1x64_1 (iotaInDim S64 32 0)) (ix2 n g) = BitVec.ofNat 32 g.val := by
  rw [broadcastInDim_apply _ bcast_S1x64_S50000x64_0_1 _ (ix2 n g) (ix2 (0 : Fin 1) g)
      (fun a => match a with | ⟨0, _⟩ => rfl | ⟨1, _⟩ => rfl),
    broadcastInDim_apply _ bcast_S64_S1x64_1 _ (ix2 (0 : Fin 1) g) (ix1 g)
      (fun a => match a with | ⟨0, _⟩ => rfl)]
  rfl

theorem oneHot_apply (batch : Arr (F := Ideal) S50000 .i32) (n : Fin 50000) (g : Fin 64) :
    oneHot (F := Ideal) batch (ix2 n g) = if (batch (ix1 n)).toInt = (g.val : Int) then (1 : EReal) else 0 := by
  show (FloatOps.uitofp .f32 (IntOp.cmpi .eq
      (broadcastInDim S50000x64 ![0, 1] bcast_S50000x1_S50000x64_0_1
        (broadcastInDim S50000x1 ![0] bcast_S50000_S50000x1_0 batch) (ix2 n g))
      (broadcastInDim S50000x64 ![0, 1] bcast_S1x64_S50000x64_0_1
        (broadcastInDim S1x64 ![1] bcast_S64_S1x64_1 (iotaInDim S64 32 0)) (ix2 n g))) : Ideal .f32) = _
  rw [batchCols_apply, iotaRows_apply, Cert.LibSG.uitofp_bit]
  refine if_congr ?_ rfl rfl
  rw [StableHlo.Predicate.cmpi_eq_iff]
  exact eq_ofNat_iff_toInt _ g.val g.isLt

theorem poolSum_oneHot_eq_scatterAdd (d : ScatterDims ⟨2, ![64, 128]⟩ ⟨2, ![50000, 1]⟩ ⟨2, ![50000, 128]⟩)
    (huw : d.updateWindowDims = [1]) (hiw : d.insertedWindowDims = [0]) (hsd : d.scatterDimsToOperandDims = [0])
    (hiv : d.indexVectorDim = 1)
    (batch : Arr (F := Ideal) S50000 .i32) (x0 : FVec Ideal ⟨2, ![64, 128]⟩ .f32) (hx0 : ∀ i, x0 i = (0 : EReal))
    (idx : IVec ⟨2, ![50000, 1]⟩ 32) (hidx : ∀ n : Fin 50000, idx (ix2 n (0 : Fin 1)) = batch (ix1 n))
    (H : FVec Ideal ⟨2, ![50000, 128]⟩ .f32) (g : Fin 64) (k : Fin 128) :
    Cert.Spec.poolSum (fun n g => oneHot (F := Ideal) batch (ix2 n g)) (fun n k => H (ix2 n k)) g k
      = Host.scatterAdd d x0 idx H (ix2 g k) := by
  rw [Cert.LibSG.scatterAdd_row_apply d huw hiw hsd hiv, hx0, zero_add, Finset.sum_filter]
  unfold Cert.Spec.poolSum
  refine Finset.sum_congr rfl fun n _ => ?_
  show oneHot (F := Ideal) batch (ix2 n g) * H (ix2 n k) = _
  rw [oneHot_apply, Cert.LibSG.ite_one_zero_mul, hidx]

theorem colSum_oneHot_eq_scatterAdd (d : ScatterDims ⟨1, ![64]⟩ ⟨2, ![50000, 1]⟩ ⟨1, ![50000]⟩)
    (huw : d.updateWindowDims = []) (hiw : d.insertedWindowDims = [0]) (hsd : d.scatterDimsToOperandDims = [0])
    (hiv : d.indexVectorDim = 1)
    (batch : Arr (F := Ideal) S50000 .i32) (x0 : FVec Ideal ⟨1, ![64]⟩ .f32) (hx0 : ∀ i, x0 i = (0 : EReal))
    (idx : IVec ⟨2, ![50000, 1]⟩ 32) (hidx : ∀ n : Fin 50000, idx (ix2 n (0 : Fin 1)) = batch (ix1 n))
    (u : FVec Ideal ⟨1, ![50000]⟩ .f32) (hu : ∀ i, u i = (1 : EReal)) (g : Fin 64) :
    Host.reduceAdd (oneHot (F := Ideal) batch) (constant S_ .f32 0x00000000#32) reducesTo_S50000x64_S64_d0 h_S_ (ix1 g)
      = Host.scatterAdd d x0 idx u (ix1 g) := by
  have hR : S50000x64.Reduces [0] S64 := by
    obtain ⟨h1, h2⟩ := reducesTo_S50000x64_S64_d0
    exact ⟨h1, Nat.one_pos, h2⟩
  rw [Cert.LibSG.scatterAdd_vec_apply d huw hiw hsd hiv, hx0, hostReduceAdd_apply,
    Ideal.hostReduceAdd_single reducesTo_S50000x64_S64_d0 hR, constant_apply, Ideal.ofBits_zero_f32,
    Finset.sum_filter]
  show (0 : EReal) + ∑ n : Fin 50000, oneHot (F := Ideal) batch (hR.lift (ix1 g) n) = _
  rw [zero_add, zero_add]
  refine Finset.sum_congr rfl fun n _ => ?_
  have hl : hR.lift (ix1 g) n = ix2 n g := by
    funext c
    match c with
    | ⟨0, _⟩ => exact Fin.ext rfl
    | ⟨1, _⟩ => exact Fin.ext rfl
  rw [hl, oneHot_apply, hidx, hu]

end Cert.KernelIdeal.Hand

end
-- ==== Proof.RefVal.lean ====
import proofs.«427134_j31456340476253_1_alg».proof.Proof.Gen.ReferenceIdeal.Run
import proofs.«427134_j31456340476253_1_alg».proof.Proof.RefLayer

noncomputable section

namespace Cert.ReferenceIdeal.RefValue

open Idealize.ShloMosaic Idealize.ShloMosaic.TcCoe Idealize.SL.Sem Cert.ReferenceIdeal Cert.ReferenceIdeal.Gen

variable {F : FTy → Type} [FloatOps F]

abbrev Arr (S : Shape) (e : EltTy) : Type := (⟨S, e⟩ : BufTy).Contents (Elt F)

def srcRow (e : Arr (F := F) S2x600000 .i32) : Arr (F := F) S600000 .i32 :=
  shapeCast _ (extractStridedSlice S1x600000 ![0, 0] e slices_S2x600000_S1x600000_0_0) shapeCasts_S1x600000_S600000

def dstRow (e : Arr (F := F) S2x600000 .i32) : Arr (F := F) S600000 .i32 :=
  shapeCast _ (extractStridedSlice S1x600000 ![1, 0] e slices_S2x600000_S1x600000_1_0) shapeCasts_S1x600000_S600000

def srcWrappedOf (s : Arr (F := F) S600000 .i32) : Arr (F := F) S600000 .i32 :=
  select (cmpi .slt s (broadcastInDim S600000 ![] bcast_S_S600000 (constantI S_ 32 0#32)))
    (addi s (broadcastInDim S600000 ![] bcast_S_S600000 (constantI S_ 32 50000#32))) s

def cntCol (e : Arr (F := F) S2x600000 .i32) : Arr (F := F) S50000x1 .f32 :=
  broadcastInDim S50000x1 ![0] bcast_S50000_S50000x1_0
    (maximumf
      (Host.scatterAdd scatter_S50000_S600000x1_S600000_n_0_0_1 (broadcastInDim S50000 ![] bcast_S_S50000 (constant S_ .f32 0x00000000#32))
        (broadcastInDim S600000x1 ![0] bcast_S600000_S600000x1_0 (dstRow e))
        (broadcastInDim S600000 ![] bcast_S_S600000 (constant S_ .f32 0x3F800000#32)))
      (broadcastInDim S50000 ![] bcast_S_S50000 (constant S_ .f32 0x3F800000#32)))

def aggFrom (h : Arr (F := F) S50000x128 .f32) (s d : Arr (F := F) S600000 .i32) (cnt : Arr (F := F) S50000x1 .f32) : Arr (F := F) S50000x128 .f32 :=
  Host.divf
    (Host.scatterAdd scatter_S50000x128_S600000x1_S600000x128_1_0_0_1 (broadcastInDim S50000x128 ![] bcast_S_S50000x128 (constant S_ .f32 0x00000000#32))
      (broadcastInDim S600000x1 ![0] bcast_S600000_S600000x1_0 d)
      (Host.gather gather_S50000x128_S600000x1_S600000x128_1_0_n_n_0_1_1128 h (broadcastInDim S600000x1 ![0] bcast_S600000_S600000x1_0 (srcWrappedOf s))))
    (broadcastInDim S50000x128 ![0, 1] bcast_S50000x1_S50000x128_0_1 cnt)

def agg (h : Arr (F := F) S50000x128 .f32) (e : Arr (F := F) S2x600000 .i32) : Arr (F := F) S50000x128 .f32 :=
  aggFrom h (srcRow e) (dstRow e) (cntCol e)

def classify (pooled : Arr (F := F) S64x128 .f32) (gc : Arr (F := F) S64 .f32) (wc : Arr (F := F) S128x1 .f32) (bc : Arr (F := F) S1 .f32) :
    Arr (F := F) S64x1 .f32 :=
  Host.divf (broadcastInDim S64x1 ![] bcast_S_S64x1 (constant S_ .f32 0x3F800000#32))
    (addf (broadcastInDim S64x1 ![] bcast_S_S64x1 (constant S_ .f32 0x3F800000#32))
      (Host.exp (Host.negf (addf
        (Host.dotGeneral dot_S64x128_S128x1_S64x1_1_0_0_1_n_n none
          (Host.divf pooled (broadcastInDim S64x128 ![0, 1] bcast_S64x1_S64x128_0_1 (broadcastInDim S64x1 ![0] bcast_S64_S64x1_0 gc))) wc)
        (broadcastInDim S64x1 ![0, 1] bcast_S1x1_S64x1_0_1 (broadcastInDim S1x1 ![1] bcast_S1_S1x1_1 bc))))))

def refPool (batch : Arr (F := F) S50000 .i32) (H : Arr (F := F) S50000x128 .f32) : Arr (F := F) S64x128 .f32 :=
  Host.scatterAdd scatter_S64x128_S50000x1_S50000x128_1_0_0_1 (broadcastInDim S64x128 ![] bcast_S_S64x128 (constant S_ .f32 0x00000000#32))
    (broadcastInDim S50000x1 ![0] bcast_S50000_S50000x1_0 batch) H

def refCount (batch : Arr (F := F) S50000 .i32) : Arr (F := F) S64 .f32 :=
  maximumf
    (Host.scatterAdd scatter_S64_S50000x1_S50000_n_0_0_1 (broadcastInDim S64 ![] bcast_S_S64 (constant S_ .f32 0x00000000#32))
      (broadcastInDim S50000x1 ![0] bcast_S50000_S50000x1_0 batch) (broadcastInDim S50000 ![] bcast_S_S50000 (constant S_ .f32 0x3F800000#32)))
    (broadcastInDim S64 ![] bcast_S_S64 (constant S_ .f32 0x3F800000#32))

variable (m : (ℓ : Loc nD τ sig) → Buf (Elt Ideal) ℓ) (c : Dev nD)

def layer1 : Arr (F := Ideal) S50000x128 .f32 :=
  refLayer (agg (m ((c.tc : Thread nD τ).loc main_arg0)) (m ((c.tc : Thread nD τ).loc main_arg1))) (m ((c.tc : Thread nD τ).loc main_arg0))
    (m ((c.tc : Thread nD τ).loc main_arg4)) (m ((c.tc : Thread nD τ).loc main_arg5)) (m ((c.tc : Thread nD τ).loc main_arg6))
def layer2 : Arr (F := Ideal) S50000x128 .f32 :=
  refLayer (agg (layer1 m c) (m ((c.tc : Thread nD τ).loc main_arg1))) (layer1 m c)
    (m ((c.tc : Thread nD τ).loc main_arg7)) (m ((c.tc : Thread nD τ).loc main_arg8)) (m ((c.tc : Thread nD τ).loc main_arg9))
def layer3 : Arr (F := Ideal) S50000x128 .f32 :=
  refLayer (agg (layer2 m c) (m ((c.tc : Thread nD τ).loc main_arg1))) (layer2 m c)
    (m ((c.tc : Thread nD τ).loc main_arg10)) (m ((c.tc : Thread nD τ).loc main_arg11)) (m ((c.tc : Thread nD τ).loc main_arg12))
def layer4 : Arr (F := Ideal) S50000x128 .f32 :=
  refLayer (agg (layer3 m c) (m ((c.tc : Thread nD τ).loc main_arg1))) (layer3 m c)
    (m ((c.tc : Thread nD τ).loc main_arg13)) (m ((c.tc : Thread nD τ).loc main_arg14)) (m ((c.tc : Thread nD τ).loc main_arg15))

set_option maxRecDepth 16384 in
set_option maxHeartbeats 4000000 in

theorem res_eq : Cert.ReferenceIdeal.Value.res_main_v129 (F := Ideal) m c
    = classify (refPool (m ((c.tc : Thread nD τ).loc main_arg3)) (layer4 m c)) (refCount (m ((c.tc : Thread nD τ).loc main_arg3)))
        (m ((c.tc : Thread nD τ).loc main_arg16)) (m ((c.tc : Thread nD τ).loc main_arg17)) := by
  unfold Cert.ReferenceIdeal.Value.res_main_v129 classify refPool refCount layer4 layer3 layer2 layer1 refLayer agg aggFrom srcWrappedOf cntCol dstRow srcRow
  rfl

end Cert.ReferenceIdeal.RefValue

end
-- ==== Proof.Bridge.lean ====
import proofs.«427134_j31456340476253_1_alg».proof.Proof.KI.Value
import proofs.«427134_j31456340476253_1_alg».proof.Proof.KI.PoolBridge
import proofs.«427134_j31456340476253_1_alg».proof.Proof.RefVal

set_option maxRecDepth 16384

noncomputable section

namespace Cert.Bridge

open Idealize.ShloMosaic Idealize.ShloMosaic.TcCoe Idealize.SL.Sem Idealize.ShloMosaic.ValueIdx

theorem zeros_apply {s : Shape} (h : Shape.BroadcastsInDim (⟨0, ![]⟩ : Shape) s ![]) (i : s.Idx) :
    broadcastInDim s ![] h (constant (F := Ideal) ⟨0, ![]⟩ .f32 0x00000000#32) i = (0 : EReal) := by
  refine (broadcastInDim_apply _ h _ i ix0 (fun a => a.elim0)).trans ?_
  rw [constant_apply]
  exact Ideal.ofBits_zero_f32

theorem ones_apply {s : Shape} (h : Shape.BroadcastsInDim (⟨0, ![]⟩ : Shape) s ![]) (i : s.Idx) :
    broadcastInDim s ![] h (constant (F := Ideal) ⟨0, ![]⟩ .f32 0x3F800000#32) i = (1 : EReal) := by
  refine (broadcastInDim_apply _ h _ i ix0 (fun a => a.elim0)).trans ?_
  rw [constant_apply]
  exact Ideal.ofBits_one_f32

end Cert.Bridge

end
-- ==== Proof.lean ====
import proofs.«427134_j31456340476253_1_alg».proof.Defs
import proofs.«427134_j31456340476253_1_alg».proof.Proof.Gen.Kernel
import proofs.«427134_j31456340476253_1_alg».proof.Proof.Gen.KernelIdeal
import proofs.«427134_j31456340476253_1_alg».proof.Proof.Gen.ReferenceIdeal
import proofs.«427134_j31456340476253_1_alg».proof.Proof.Gen.Pre_finite_inputs
import proofs.«427134_j31456340476253_1_alg».proof.Proof.K.Run
import proofs.«427134_j31456340476253_1_alg».proof.Proof.KI.Run
import proofs.«427134_j31456340476253_1_alg».proof.Proof.RefRun
import proofs.«427134_j31456340476253_1_alg».proof.Proof.Bridge

set_option maxRecDepth 16384

noncomputable section

namespace Cert.Proof

open Idealize.ShloMosaic Idealize.ShloMosaic.TcCoe Idealize.SL.Sem Idealize.ShloMosaic.ValueIdx

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_r : Cert.frame_ReferenceIdeal := fun m ρ _ =>
  (θ_run Cert.ReferenceIdeal.defs _ _).mono (fun _ h c => (h c).2) (Cert.ReferenceIdeal.Value.run (F := Ideal) m ρ)

set_option maxHeartbeats 4000000 in
-- Layer by layer both sides are one function of the arguments; the pooled sums agree because an indicator-masked sum is the sum over the marked rows.
theorem algebraic : Cert.algebraic_KernelIdeal_ReferenceIdeal := by
  intro m ρ m' ρ' _ hagree
  refine ⟨fun c => Cert.KernelIdeal.Hand.W11 m c (Proc.devRef .tc Cert.KernelIdeal.main_v90),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, _, a3, a4, a5, a6, a7, a8, a9, a10, a11, a12, a13, a14, a15, a16, a17⟩ := hagree c
  show Cert.ReferenceIdeal.Value.res_main_v129 (F := Ideal) m' c = Cert.KernelIdeal.Hand.W11 m c (Proc.devRef .tc Cert.KernelIdeal.main_v90)
  have hl1 : Cert.ReferenceIdeal.RefValue.layer1 m' c = Cert.KernelIdeal.Hand.h1 m c := by
    funext idx
    obtain ⟨i, j, rfl⟩ : ∃ (i : Fin 50000) (j : Fin 128), idx = ix2 i j := ⟨idx 0, idx 1, eq_ix2 idx⟩
    refine Eq.trans ?_ (Cert.KernelIdeal.Hand.h1_apply m c i j).symm
    refine (Cert.ReferenceIdeal.RefValue.refLayer_apply _ _ _ _ _ i j).trans ?_
    rw [← Cert.Spec.combine_eq_combineRef, a0, a1, a4, a5, a6]
    rfl
  have hl2 : Cert.ReferenceIdeal.RefValue.layer2 m' c = Cert.KernelIdeal.Hand.h2 m c := by
    funext idx
    obtain ⟨i, j, rfl⟩ : ∃ (i : Fin 50000) (j : Fin 128), idx = ix2 i j := ⟨idx 0, idx 1, eq_ix2 idx⟩
    refine Eq.trans ?_ (Cert.KernelIdeal.Hand.h2_apply m c i j).symm
    refine (Cert.ReferenceIdeal.RefValue.refLayer_apply _ _ _ _ _ i j).trans ?_
    rw [← Cert.Spec.combine_eq_combineRef, hl1, a1, a7, a8, a9]
    rfl
  have hl3 : Cert.ReferenceIdeal.RefValue.layer3 m' c = Cert.KernelIdeal.Hand.h3 m c := by
    funext idx
    obtain ⟨i, j, rfl⟩ : ∃ (i : Fin 50000) (j : Fin 128), idx = ix2 i j := ⟨idx 0, idx 1, eq_ix2 idx⟩
    refine Eq.trans ?_ (Cert.KernelIdeal.Hand.h3_apply m c i j).symm
    refine (Cert.ReferenceIdeal.RefValue.refLayer_apply _ _ _ _ _ i j).trans ?_
    rw [← Cert.Spec.combine_eq_combineRef, hl2, a1, a10, a11, a12]
    rfl
  have hl4 : Cert.ReferenceIdeal.RefValue.layer4 m' c = Cert.KernelIdeal.Hand.h4 m c := by
    funext idx
    obtain ⟨i, j, rfl⟩ : ∃ (i : Fin 50000) (j : Fin 128), idx = ix2 i j := ⟨idx 0, idx 1, eq_ix2 idx⟩
    refine Eq.trans ?_ (Cert.KernelIdeal.Hand.h4_apply m c i j).symm
    refine (Cert.ReferenceIdeal.RefValue.refLayer_apply _ _ _ _ _ i j).trans ?_
    rw [← Cert.Spec.combine_eq_combineRef, hl3, a1, a13, a14, a15]
    rfl
  set ids := m ((c.tc : Thread Cert.KernelIdeal.nD Cert.KernelIdeal.τ).loc Cert.KernelIdeal.main_arg3) with hids
  have hidx : ∀ n : Fin 50000, broadcastInDim Cert.ReferenceIdeal.S50000x1 ![0] Cert.ReferenceIdeal.Facts₀.bcast_S50000_S50000x1_0 ids (ix2 n (0 : Fin 1))
      = (ids : Cert.KernelIdeal.Hand.Arr (F := Ideal) Cert.KernelIdeal.S50000 .i32) (ix1 n) := fun n =>
    broadcastInDim_apply _ Cert.ReferenceIdeal.Facts₀.bcast_S50000_S50000x1_0 _ (ix2 n (0 : Fin 1)) (ix1 n) (fun a => match a with | ⟨0, _⟩ => rfl)
  have hpool : Cert.ReferenceIdeal.RefValue.refPool (F := Ideal) ids (Cert.KernelIdeal.Hand.h4 m c) = Cert.KernelIdeal.Hand.W10 m c (Proc.devRef .tc Cert.KernelIdeal.main_v77) := by
    funext idx
    obtain ⟨g, k, rfl⟩ : ∃ (g : Fin 64) (k : Fin 128), idx = ix2 g k := ⟨idx 0, idx 1, eq_ix2 idx⟩
    refine Eq.trans ?_ (Cert.KernelIdeal.Hand.pool_apply m c g k).symm
    exact (Cert.KernelIdeal.Hand.poolSum_oneHot_eq_scatterAdd Cert.ReferenceIdeal.scatter_S64x128_S50000x1_S50000x128_1_0_0_1 rfl rfl rfl rfl ids
      _ (Cert.Bridge.zeros_apply Cert.ReferenceIdeal.Facts₀.bcast_S_S64x128) _ hidx (Cert.KernelIdeal.Hand.h4 m c) _ _).symm
  have hcnt : Cert.ReferenceIdeal.RefValue.refCount (F := Ideal) ids = Cert.KernelIdeal.Hand.groupCount (F := Ideal) ids := by
    have hsum : (Host.scatterAdd Cert.ReferenceIdeal.scatter_S64_S50000x1_S50000_n_0_0_1 (broadcastInDim Cert.ReferenceIdeal.S64 ![] Cert.ReferenceIdeal.Facts₀.bcast_S_S64 (constant (F := Ideal) Cert.ReferenceIdeal.S_ .f32 0x00000000#32))
          (broadcastInDim Cert.ReferenceIdeal.S50000x1 ![0] Cert.ReferenceIdeal.Facts₀.bcast_S50000_S50000x1_0 ids)
          (broadcastInDim Cert.ReferenceIdeal.S50000 ![] Cert.ReferenceIdeal.Facts₀.bcast_S_S50000 (constant (F := Ideal) Cert.ReferenceIdeal.S_ .f32 0x3F800000#32)) : FVec Ideal Cert.ReferenceIdeal.S64 .f32)
        = Host.reduceAdd (Cert.KernelIdeal.Hand.oneHot (F := Ideal) ids) (constant Cert.KernelIdeal.S_ .f32 0x00000000#32) Cert.KernelIdeal.Facts₀.reducesTo_S50000x64_S64_d0 Cert.KernelIdeal.Facts₀.h_S_ := by
      funext idx
      obtain ⟨g, rfl⟩ : ∃ g : Fin 64, idx = ix1 g := ⟨idx 0, eq_ix1 idx⟩
      exact (Cert.KernelIdeal.Hand.colSum_oneHot_eq_scatterAdd Cert.ReferenceIdeal.scatter_S64_S50000x1_S50000_n_0_0_1 rfl rfl rfl rfl ids
        _ (Cert.Bridge.zeros_apply Cert.ReferenceIdeal.Facts₀.bcast_S_S64) _ hidx _ (Cert.Bridge.ones_apply Cert.ReferenceIdeal.Facts₀.bcast_S_S50000) _).symm
    unfold Cert.ReferenceIdeal.RefValue.refCount Cert.KernelIdeal.Hand.groupCount
    rw [hsum]
  rw [Cert.ReferenceIdeal.RefValue.res_eq, Cert.KernelIdeal.Hand.W11_v90, hl4, a3, a16, a17, hpool, hcnt]
  rfl

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
